-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x128 : Shape := ⟨2, ![500000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S128x1 : Shape := ⟨2, ![128, 1]⟩
abbrev S1 : Shape := ⟨1, ![1]⟩
abbrev S128x3 : Shape := ⟨2, ![128, 3]⟩
abbrev S3 : Shape := ⟨1, ![3]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S384x128 : S_.BroadcastsInDim S384x128 (![] : Fin 0 → Fin S384x128.rank)
  reducesTo_S384x128_S_d0_1 : S384x128.ReducesTo [0, 1] S_

variable [Facts]

def fn_part7 {F : FTy → Type} [FloatOps F] (main_arg26 : FVec F S3 .f32) (main_v118 : IVec S_ 1) (main_v119 : FVec F S128x3 .f32) : IVec S_ 1 :=
  let main_cst_46 : FVec F S_ .f32 := constant S_ .f32 0x7F800000#32
  let main_v120 : FVec F S128x3 .f32 := broadcastInDim S128x3 ![] bcast_S_S128x3 main_cst_46
  let main_v121 : IVec S128x3 1 := cmpf .olt main_v119 main_v120
  let main_c_47 : IVec S_ 1 := constantI S_ 1 1#1
  let main_v122 : IVec S_ 1 := (fun x v => Host.reduce IntOp.andi x v reducesTo_S128x3_S_d0_1 h_S_) main_v121 main_c_47
  let main_v123 : IVec S_ 1 := andi main_v118 main_v122
  let main_v124 : FVec F S3 .f32 := Host.absf main_arg26
  let main_cst_48 : FVec F S_ .f32 := constant S_ .f32 0x7F800000#32
  let main_v125 : FVec F S3 .f32 := broadcastInDim S3 ![] bcast_S_S3 main_cst_48
  let main_v126 : IVec S3 1 := cmpf .olt main_v124 main_v125
  let main_c_49 : IVec S_ 1 := constantI S_ 1 1#1
  let main_v127 : IVec S_ 1 := (fun x v => Host.reduce IntOp.andi x v reducesTo_S3_S_d0 h_S_) main_v126 main_c_49
  let main_v128 : IVec S_ 1 := andi main_v123 main_v127
  main_v128

def fn_part6 {F : FTy → Type} [FloatOps F] (main_arg22 : FVec F S1 .f32) (main_arg23 : FVec F S384x128 .f32) (main_arg24 : FVec F S128 .f32) (main_arg25 : FVec F S128x3 .f32) (main_arg26 : FVec F S3 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S384x128 .f32 := Host.absf main_arg23
  let main_cst_42 : FVec F S_ .f32 := constant S_ .f32 0x7F800000#32
  let main_v110 : FVec F S384x128 .f32 := broadcastInDim S384x128 ![] bcast_S_S384x128 main_cst_42
  let main_v111 : IVec S384x128 1 := cmpf .olt main_v109 main_v110
  let main_c_43 : IVec S_ 1 := constantI S_ 1 1#1
  let main_v112 : IVec S_ 1 := (fun x v => Host.reduce IntOp.andi x v reducesTo_S384x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x3 .f32 := Host.absf main_arg25
  fn_part7 (F := F) main_arg26 main_v118 main_v119

def fn_part5 {F : FTy → Type} [FloatOps F] (main_arg19 : FVec F S384x128 .f32) (main_arg20 : FVec F S128 .f32) (main_arg21 : FVec F S128x1 .f32) (main_arg22 : FVec F S1 .f32) (main_arg23 : FVec F S384x128 .f32) (main_arg24 : FVec F S128 .f32) (main_arg25 : FVec F S128x3 .f32) (main_arg26 : FVec F S3 .f32) (main_v83 : IVec S_ 1) (main_v84 : FVec F S3 .f32) (main_cst_32 : FVec F S_ .f32) : IVec S_ 1 :=
  let main_v85 : FVec F S3 .f32 := broadcastInDim S3 ![] bcast_S_S3 main_cst_32
  let main_v86 : IVec S3 1 := cmpf .olt main_v84 main_v85
  let main_c_33 : IVec S_ 1 := constantI S_ 1 1#1
  let main_v87 : IVec S_ 1 := (fun x v => Host.reduce IntOp.andi x v reducesTo_S3_S_d0 h_S_) main_v86 main_c_33
  let main_v88 : IVec S_ 1 := andi main_v83 main_v87
  let main_v89 : FVec F S384x128 .f32 := Host.absf main_arg19
  let main_cst_34 : FVec F S_ .f32 := constant S_ .f32 0x7F800000#32
  let main_v90 : FVec F S384x128 .f32 := broadcastInDim S384x128 ![] bcast_S_S384x128 main_cst_34
  let main_v91 : IVec S384x128 1 := cmpf .olt main_v89 main_v90
  let main_c_35 : IVec S_ 1 := constantI S_ 1 1#1
  let main_v92 : IVec S_ 1 := (fun x v => Host.reduce IntOp.andi x v reducesTo_S384x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg21
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg22 main_arg23 main_arg24 main_arg25 main_arg26 main_v98 main_v101 main_c_39

def fn_part4 {F : FTy → Type} [FloatOps F] (main_arg15 : FVec F S128x128 .f32) (main_arg16 : FVec F S128 .f32) (main_arg17 : FVec F S128x3 .f32) (main_arg18 : FVec F S3 .f32) (main_arg19 : FVec F S384x128 .f32) (main_arg20 : FVec F S128 .f32) (main_arg21 : FVec F S128x1 .f32) (main_arg22 : FVec F S1 .f32) (main_arg23 : FVec F S384x128 .f32) (main_arg24 : FVec F S128 .f32) (main_arg25 : FVec F S128x3 .f32) (main_arg26 : FVec F S3 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x3 .f32 := Host.absf main_arg17
  let main_cst_30 : FVec F S_ .f32 := constant S_ .f32 0x7F800000#32
  let main_v80 : FVec F S128x3 .f32 := broadcastInDim S128x3 ![] bcast_S_S128x3 main_cst_30
  let main_v81 : IVec S128x3 1 := cmpf .olt main_v79 main_v80
  let main_c_31 : IVec S_ 1 := constantI S_ 1 1#1
  let main_v82 : IVec S_ 1 := (fun x v => Host.reduce IntOp.andi x v reducesTo_S128x3_S_d0_1 h_S_) main_v81 main_c_31
  let main_v83 : IVec S_ 1 := andi main_v78 main_v82
  let main_v84 : FVec F S3 .f32 := Host.absf main_arg18
  let main_cst_32 : FVec F S_ .f32 := constant S_ .f32 0x7F800000#32
  fn_part5 (F := F) main_arg19 main_arg20 main_arg21 main_arg22 main_arg23 main_arg24 main_arg25 main_arg26 main_v83 main_v84 main_cst_32

def fn_part3 {F : FTy → Type} [FloatOps F] (main_arg12 : FVec F S128 .f32) (main_arg13 : FVec F S128x1 .f32) (main_arg14 : FVec F S1 .f32) (main_arg15 : FVec F S128x128 .f32) (main_arg16 : FVec F S128 .f32) (main_arg17 : FVec F S128x3 .f32) (main_arg18 : FVec F S3 .f32) (main_arg19 : FVec F S384x128 .f32) (main_arg20 : FVec F S128 .f32) (main_arg21 : FVec F S128x1 .f32) (main_arg22 : FVec F S1 .f32) (main_arg23 : FVec F S384x128 .f32) (main_arg24 : FVec F S128 .f32) (main_arg25 : FVec F S128x3 .f32) (main_arg26 : FVec F S3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg15 main_arg16 main_arg17 main_arg18 main_arg19 main_arg20 main_arg21 main_arg22 main_arg23 main_arg24 main_arg25 main_arg26 main_v63 main_v67

def fn_part2 {F : FTy → Type} [FloatOps F] (main_arg8 : FVec F S128 .f32) (main_arg9 : FVec F S128x2 .f32) (main_arg10 : FVec F S2 .f32) (main_arg11 : FVec F S128x128 .f32) (main_arg12 : FVec F S128 .f32) (main_arg13 : FVec F S128x1 .f32) (main_arg14 : FVec F S1 .f32) (main_arg15 : FVec F S128x128 .f32) (main_arg16 : FVec F S128 .f32) (main_arg17 : FVec F S128x3 .f32) (main_arg18 : FVec F S3 .f32) (main_arg19 : FVec F S384x128 .f32) (main_arg20 : FVec F S128 .f32) (main_arg21 : FVec F S128x1 .f32) (main_arg22 : FVec F S1 .f32) (main_arg23 : FVec F S384x128 .f32) (main_arg24 : FVec F S128 .f32) (main_arg25 : FVec F S128x3 .f32) (main_arg26 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg9
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg5 : FVec F S128x2 .f32) (main_arg6 : FVec F S2 .f32) (main_arg7 : FVec F S128x128 .f32) (main_arg8 : FVec F S128 .f32) (main_arg9 : FVec F S128x2 .f32) (main_arg10 : FVec F S2 .f32) (main_arg11 : FVec F S128x128 .f32) (main_arg12 : FVec F S128 .f32) (main_arg13 : FVec F S128x1 .f32) (main_arg14 : FVec F S1 .f32) (main_arg15 : FVec F S128x128 .f32) (main_arg16 : FVec F S128 .f32) (main_arg17 : FVec F S128x3 .f32) (main_arg18 : FVec F S3 .f32) (main_arg19 : FVec F S384x128 .f32) (main_arg20 : FVec F S128 .f32) (main_arg21 : FVec F S128x1 .f32) (main_arg22 : FVec F S1 .f32) (main_arg23 : FVec F S384x128 .f32) (main_arg24 : FVec F S128 .f32) (main_arg25 : FVec F S128x3 .f32) (main_arg26 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x2 .f32 := Host.absf main_arg5
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S50000x128 .f32) (main_arg1 : IVec S2x500000 32) (main_arg2 : FVec F S500000x128 .f32) (main_arg3 : FVec F S128x128 .f32) (main_arg4 : FVec F S128 .f32) (main_arg5 : FVec F S128x2 .f32) (main_arg6 : FVec F S2 .f32) (main_arg7 : FVec F S128x128 .f32) (main_arg8 : FVec F S128 .f32) (main_arg9 : FVec F S128x2 .f32) (main_arg10 : FVec F S2 .f32) (main_arg11 : FVec F S128x128 .f32) (main_arg12 : FVec F S128 .f32) (main_arg13 : FVec F S128x1 .f32) (main_arg14 : FVec F S1 .f32) (main_arg15 : FVec F S128x128 .f32) (main_arg16 : FVec F S128 .f32) (main_arg17 : FVec F S128x3 .f32) (main_arg18 : FVec F S3 .f32) (main_arg19 : FVec F S384x128 .f32) (main_arg20 : FVec F S128 .f32) (main_arg21 : FVec F S128x1 .f32) (main_arg22 : FVec F S1 .f32) (main_arg23 : FVec F S384x128 .f32) (main_arg24 : FVec F S128 .f32) (main_arg25 : FVec F S128x3 .f32) (main_arg26 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg2
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S50000x128 : Shape := ⟨2, ![50000, 128]⟩
abbrev S2x500000 : Shape := ⟨2, ![2, 500000]⟩
abbrev S500000x128 : Shape := ⟨2, ![500000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S128x1 : Shape := ⟨2, ![128, 1]⟩
abbrev S1 : Shape := ⟨1, ![1]⟩
abbrev S128x3 : Shape := ⟨2, ![128, 3]⟩
abbrev S3 : Shape := ⟨1, ![3]⟩
abbrev S384x128 : Shape := ⟨2, ![384, 128]⟩
abbrev S1x500000 : Shape := ⟨2, ![1, 500000]⟩
abbrev S500000 : Shape := ⟨1, ![500000]⟩
abbrev S128x512 : Shape := ⟨2, ![128, 512]⟩
abbrev S512 : Shape := ⟨1, ![512]⟩
abbrev S50000x10 : Shape := ⟨2, ![50000, 10]⟩
abbrev S5000x128 : Shape := ⟨2, ![5000, 128]⟩
abbrev S5000x10 : Shape := ⟨2, ![5000, 10]⟩
abbrev S5000x512 : Shape := ⟨2, ![5000, 512]⟩
abbrev S1x512 : Shape := ⟨2, ![1, 512]⟩
abbrev S5000x2 : Shape := ⟨2, ![5000, 2]⟩
abbrev S1x2 : Shape := ⟨2, ![1, 2]⟩
abbrev S5000x1 : Shape := ⟨2, ![5000, 1]⟩
abbrev S1x1 : Shape := ⟨2, ![1, 1]⟩
abbrev S5000x3 : Shape := ⟨2, ![5000, 3]⟩
abbrev S1x3 : Shape := ⟨2, ![1, 3]⟩
abbrev S50000x2 : Shape := ⟨2, ![50000, 2]⟩
abbrev S_ : Shape := ⟨0, ![]⟩
abbrev S500000x1 : Shape := ⟨2, ![500000, 1]⟩
abbrev S50000x4 : Shape := ⟨2, ![50000, 4]⟩
abbrev S500000x4 : Shape := ⟨2, ![500000, 4]⟩
abbrev S384x256 : Shape := ⟨2, ![384, 256]⟩
abbrev S256 : Shape := ⟨1, ![256]⟩
abbrev S500000x2 : Shape := ⟨2, ![500000, 2]⟩
abbrev S5000x4 : Shape := ⟨2, ![5000, 4]⟩
abbrev S128x256 : Shape := ⟨2, ![128, 256]⟩
abbrev S5000x256 : Shape := ⟨2, ![5000, 256]⟩
abbrev S1x256 : Shape := ⟨2, ![1, 256]⟩
abbrev S50000x2x1 : Shape := ⟨3, ![50000, 2, 1]⟩

abbrev nBuf : Space → Nat
  | .hbm => 78
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x128, .f32⟩
  | .hbm, ⟨3, _⟩ => ⟨S128x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S128x128, .f32⟩
  | .hbm, ⟨16, _⟩ => ⟨S128, .f32⟩
  | .hbm, ⟨17, _⟩ => ⟨S128x3, .f32⟩
  | .hbm, ⟨18, _⟩ => ⟨S3, .f32⟩
  | .hbm, ⟨19, _⟩ => ⟨S384x128, .f32⟩
  | .hbm, ⟨20, _⟩ => ⟨S128, .f32⟩
  | .hbm, ⟨21, _⟩ => ⟨S128x1, .f32⟩
  | .hbm, ⟨22, _⟩ => ⟨S1, .f32⟩
  | .hbm, ⟨23, _⟩ => ⟨S384x128, .f32⟩
  | .hbm, ⟨24, _⟩ => ⟨S128, .f32⟩
  | .hbm, ⟨25, _⟩ => ⟨S128x3, .f32⟩
  | .hbm, ⟨26, _⟩ => ⟨S3, .f32⟩
  | .hbm, ⟨27, _⟩ => ⟨S1x500000, .i32⟩
  | .hbm, ⟨28, _⟩ => ⟨S500000, .i32⟩
  | .hbm, ⟨29, _⟩ => ⟨S1x500000, .i32⟩
  | .hbm, ⟨30, _⟩ => ⟨S500000, .i32⟩
  | .hbm, ⟨31, _⟩ => ⟨S128x512, .f32⟩
  | .hbm, ⟨32, _⟩ => ⟨S512, .f32⟩
  | .hbm, ⟨33, _⟩ => ⟨S50000x10, .f32⟩
  | .hbm, ⟨34, _⟩ => ⟨S50000x128, .bf16⟩
  | .hbm, ⟨35, _⟩ => ⟨S50000x2, .f32⟩
  | .hbm, ⟨36, _⟩ => ⟨S50000x2, .f32⟩
  | .hbm, ⟨37, _⟩ => ⟨S50000x2, .f32⟩
  | .hbm, ⟨38, _⟩ => ⟨S50000x2, .f32⟩
  | .hbm, ⟨39, _⟩ => ⟨S50000x2, .f32⟩
  | .hbm, ⟨40, _⟩ => ⟨S_, .i32⟩
  | .hbm, ⟨41, _⟩ => ⟨S500000, .i32⟩
  | .hbm, ⟨42, _⟩ => ⟨S500000, .i1⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S500000x1, .i32⟩
  | .hbm, ⟨48, _⟩ => ⟨S500000x128, .bf16⟩
  | .hbm, ⟨49, _⟩ => ⟨S_, .i32⟩
  | .hbm, ⟨50, _⟩ => ⟨S500000, .i32⟩
  | .hbm, ⟨51, _⟩ => ⟨S500000, .i1⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S500000, .i32⟩
  | .hbm, ⟨56, _⟩ => ⟨S500000x1, .i32⟩
  | .hbm, ⟨57, _⟩ => ⟨S500000x128, .bf16⟩
  | .hbm, ⟨58, _⟩ => ⟨S50000x4, .f32⟩
  | .hbm, ⟨59, _⟩ => ⟨S_, .i32⟩
  | .hbm, ⟨60, _⟩ => ⟨S500000, .i32⟩
  | .hbm, ⟨61, _⟩ => ⟨S500000, .i1⟩
  | .hbm, ⟨62, _⟩ => ⟨S_, .i32⟩
  | .hbm, ⟨63, _⟩ => ⟨S500000, .i32⟩
  | .hbm, ⟨64, _⟩ => ⟨S500000, .i32⟩
  | .hbm, ⟨65, _⟩ => ⟨S500000, .i32⟩
  | .hbm, ⟨66, _⟩ => ⟨S500000x1, .i32⟩
  | .hbm, ⟨67, _⟩ => ⟨S500000x4, .f32⟩
  | .hbm, ⟨68, _⟩ => ⟨S384x256, .f32⟩
  | .hbm, ⟨69, _⟩ => ⟨S256, .f32⟩
  | .hbm, ⟨70, _⟩ => ⟨S500000x2, .f32⟩
  | .hbm, ⟨71, _⟩ => ⟨S_, .f32⟩
  | .hbm, ⟨72, _⟩ => ⟨S50000x2, .f32⟩
  | .hbm, ⟨73, _⟩ => ⟨S500000x1, .i32⟩
  | .hbm, ⟨74, _⟩ => ⟨S50000x2, .f32⟩
  | .hbm, ⟨75, _⟩ => ⟨S50000x2, .f32⟩
  | .hbm, ⟨76, _⟩ => ⟨S50000x2x1, .f32⟩
  | .hbm, ⟨77, _⟩ => ⟨S50000x2x1, .f32⟩
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S512, .f32⟩
  | .local _ .vmem, ⟨4, _⟩ => ⟨S128x2, .f32⟩
  | .local _ .vmem, ⟨5, _⟩ => ⟨S2, .f32⟩
  | .local _ .vmem, ⟨6, _⟩ => ⟨S128x2, .f32⟩
  | .local _ .vmem, ⟨7, _⟩ => ⟨S2, .f32⟩
  | .local _ .vmem, ⟨8, _⟩ => ⟨S128x1, .f32⟩
  | .local _ .vmem, ⟨9, _⟩ => ⟨S1, .f32⟩
  | .local _ .vmem, ⟨10, _⟩ => ⟨S128x3, .f32⟩
  | .local _ .vmem, ⟨11, _⟩ => ⟨S3, .f32⟩
  | .local _ .vmem, ⟨12, _⟩ => ⟨S5000x10, .f32⟩
  | .local _ .vmem, ⟨13, _⟩ => ⟨S5000x10, .f32⟩
  | .local _ .vmem, ⟨14, _⟩ => ⟨S5000x128, .bf16⟩
  | .local _ .vmem, ⟨15, _⟩ => ⟨S5000x128, .bf16⟩
  | .local _ .vmem, ⟨16, _⟩ => ⟨S5000x128, .f32⟩
  | .local _ .vmem, ⟨17, _⟩ => ⟨S5000x128, .f32⟩
  | .local _ .vmem, ⟨18, _⟩ => ⟨S5000x128, .bf16⟩
  | .local _ .vmem, ⟨19, _⟩ => ⟨S5000x128, .bf16⟩
  | .local _ .vmem, ⟨20, _⟩ => ⟨S5000x128, .bf16⟩
  | .local _ .vmem, ⟨21, _⟩ => ⟨S5000x128, .bf16⟩
  | .local _ .vmem, ⟨22, _⟩ => ⟨S5000x4, .f32⟩
  | .local _ .vmem, ⟨23, _⟩ => ⟨S5000x4, .f32⟩
  | .local _ .vmem, ⟨24, _⟩ => ⟨S384x256, .f32⟩
  | .local _ .vmem, ⟨25, _⟩ => ⟨S256, .f32⟩
  | .local _ .vmem, ⟨26, _⟩ => ⟨S128x1, .f32⟩
  | .local _ .vmem, ⟨27, _⟩ => ⟨S1, .f32⟩
  | .local _ .vmem, ⟨28, _⟩ => ⟨S128x3, .f32⟩
  | .local _ .vmem, ⟨29, _⟩ => ⟨S3, .f32⟩
  | .local _ .vmem, ⟨30, _⟩ => ⟨S5000x2, .f32⟩
  | .local _ .vmem, ⟨31, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6_0 : Ref sig .tc := ⟨.hbm, 33, rfl⟩
abbrev main_v6_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_1 : Ref sig .tc := ⟨.hbm, 49, rfl⟩
abbrev main_v19 : Ref sig .tc := ⟨.hbm, 50, rfl⟩
abbrev main_v20 : Ref sig .tc := ⟨.hbm, 51, rfl⟩
abbrev main_c_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_3 : Ref sig .tc := ⟨.hbm, 59, rfl⟩
abbrev main_v27 : Ref sig .tc := ⟨.hbm, 60, rfl⟩
abbrev main_v28 : Ref sig .tc := ⟨.hbm, 61, rfl⟩
abbrev main_c_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S384x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S5000x512 : S1x512.Broadcasts S5000x512
  slices_S5000x512_o0_0_S5000x128 : S5000x512.Slices ![0, 0] S5000x128
  slices_S5000x512_o0_128_S5000x128 : S5000x512.Slices ![0, 128] S5000x128
  slices_S5000x512_o0_256_S5000x128 : S5000x512.Slices ![0, 256] S5000x128
  slices_S5000x512_o0_384_S5000x128 : S5000x512.Slices ![0, 384] S5000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  slices_S5000x3_o0_0_S5000x1 : S5000x3.Slices ![0, 0] S5000x1
  slices_S5000x3_o0_1_S5000x1 : S5000x3.Slices ![0, 1] S5000x1
  slices_S5000x3_o0_2_S5000x1 : S5000x3.Slices ![0, 2] S5000x1
  slices_S5000x2_o0_0_S5000x1 : S5000x2.Slices ![0, 0] S5000x1
  slices_S5000x2_o0_1_S5000x1 : S5000x2.Slices ![0, 1] S5000x1
  concatenates_S5000x2_S5000x2_S5000x1_S5000x1_S5000x1_S5000x1_S5000x1_S5000x1_S5000x10_d1 : Shape.Concatenates [S5000x2, S5000x2, S5000x1, S5000x1, S5000x1, S5000x1, S5000x1, S5000x1] S5000x10 1
  inb_S5000x10_S5000x10_0_0 : ∀ a, (![0, 0] : Fin 2 → Nat) a + S5000x10.size a ≤ S5000x10.size a
  h_S5000x10 : 0 < S5000x10.numel
  packedbf16_S5000x128_S5000x128_0_0 : (Rect.unit (s := S5000x128) ![0, 0] S5000x128.size inb_S5000x128_S5000x128_0_0).PackedRows (EltTy.packing .bf16)
  slices_S50000x10_S50000x2_0_0 : S50000x10.Slices ![0, 0] S50000x2
  slices_S50000x10_S50000x2_0_2 : S50000x10.Slices ![0, 2] S50000x2
  slices_S50000x10_S50000x2_0_4 : S50000x10.Slices ![0, 4] S50000x2
  slices_S50000x10_S50000x2_0_6 : S50000x10.Slices ![0, 6] S50000x2
  slices_S50000x10_S50000x2_0_8 : S50000x10.Slices ![0, 8] S50000x2
  bcast_S_S500000 : S_.BroadcastsInDim S500000 (![] : Fin 0 → Fin S500000.rank)
  bcast_S500000_S500000x1_0 : S500000.BroadcastsInDim S500000x1 (![0] : Fin 1 → Fin S500000x1.rank)
  concatenates_S50000x2_S50000x2_S50000x4_d1 : Shape.Concatenates [S50000x2, S50000x2] S50000x4 1
  concatenates_S384x128_S384x128_S384x256_d1 : Shape.Concatenates [S384x128, S384x128] S384x256 1
  concatenates_S128_S128_S256_d0 : Shape.Concatenates [S128, S128] S256 0
  shapeCasts_S5000x128_S5000x128 : S5000x128.ShapeCasts S5000x128
  inb_S384x256_S128x256_0_0 : ∀ a, (![0, 0] : Fin 2 → Nat) a + S128x256.size a ≤ S384x256.size a
  h_S128x256 : 0 < S128x256.numel
  shapeCasts_S128x256_S128x256 : S128x256.ShapeCasts S128x256
  inb_S384x256_S128x256_128_0 : ∀ a, (![128, 0] : Fin 2 → Nat) a + S128x256.size a ≤ S384x256.size a
  inb_S384x256_S128x256_256_0 : ∀ a, (![256, 0] : Fin 2 → Nat) a + S128x256.size a ≤ S384x256.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  slices_S5000x256_o0_0_S5000x128 : S5000x256.Slices ![0, 0] S5000x128
  slices_S5000x256_o0_128_S5000x128 : S5000x256.Slices ![0, 128] S5000x128
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  slices_S5000x4_o0_0_S5000x1 : S5000x4.Slices ![0, 0] S5000x1
  slices_S5000x4_o0_1_S5000x1 : S5000x4.Slices ![0, 1] S5000x1
  slices_S5000x4_o0_2_S5000x1 : S5000x4.Slices ![0, 2] S5000x1
  slices_S5000x4_o0_3_S5000x1 : S5000x4.Slices ![0, 3] S5000x1
  concatenates_S5000x1_S5000x1_S5000x2_d1 : Shape.Concatenates [S5000x1, S5000x1] S5000x2 1
  inb_S5000x2_S5000x2_0_0 : ∀ a, (![0, 0] : Fin 2 → Nat) a + S5000x2.size a ≤ S5000x2.size a
  h_S5000x2 : 0 < S5000x2.numel
  bcast_S_S50000x2 : S_.BroadcastsInDim S50000x2 (![] : Fin 0 → Fin S50000x2.rank)
  bcast_S50000x2_S50000x2x1_0_1 : S50000x2.BroadcastsInDim S50000x2x1 (![0, 1] : Fin 2 → Fin S50000x2x1.rank)
  dot_S5000x128_S128x512_S5000x512_1_0_0_1_n_n_wf : DotDims.WF S5000x128 S128x512 S5000x512 [1] [0] [0] [1] [] []
  dot_S5000x128_S128x2_S5000x2_1_0_0_1_n_n_wf : DotDims.WF S5000x128 S128x2 S5000x2 [1] [0] [0] [1] [] []
  dot_S5000x128_S128x1_S5000x1_1_0_0_1_n_n_wf : DotDims.WF S5000x128 S128x1 S5000x1 [1] [0] [0] [1] [] []
  dot_S5000x128_S128x3_S5000x3_1_0_0_1_n_n_wf : DotDims.WF S5000x128 S128x3 S5000x3 [1] [0] [0] [1] [] []
  gather_S50000x128_S500000x1_S500000x128_1_0_n_n_0_1_1128_wf : GatherDims.WF S50000x128 S500000x1 S500000x128 [1] [0] [] [0] [] 1 ![1, 128]
  gather_S50000x4_S500000x1_S500000x4_1_0_n_n_0_1_14_wf : GatherDims.WF S50000x4 S500000x1 S500000x4 [1] [0] [] [0] [] 1 ![1, 4]
  dot_S5000x128_S128x256_S5000x256_1_0_0_1_n_n_wf : DotDims.WF S5000x128 S128x256 S5000x256 [1] [0] [0] [1] [] []
  scatter_S50000x2_S500000x1_S500000x2_1_0_0_1_wf : ScatterDims.WF S50000x2 S500000x1 S500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2.size a ≤ S128x2.size a
  hwx0_3 : ∀ i : grid0.Coords, EltTy.bits .f32 = 32 ∨ (Rect.block (s := S128x2) S128x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2.size a ≤ S2.size a
  hwx0_4 : ∀ i : grid0.Coords, EltTy.bits .f32 = 32 ∨ (Rect.block (s := S2) S2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2.size a ≤ S128x2.size a
  hwx0_5 : ∀ i : grid0.Coords, EltTy.bits .f32 = 32 ∨ (Rect.block (s := S128x2) S128x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x3.size a ≤ S128x3.size a
  hwx0_9 : ∀ i : grid0.Coords, EltTy.bits .f32 = 32 ∨ (Rect.block (s := S128x3) S128x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3.size a ≤ S3.size a
  hwx0_10 : ∀ i : grid0.Coords, EltTy.bits .f32 = 32 ∨ (Rect.block (s := S3) S3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x10.size a ≤ S50000x10.size a
  hwx0_11 : ∀ i : grid0.Coords, EltTy.bits .f32 = 32 ∨ (Rect.block (s := S50000x10) S5000x10.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x128.size a ≤ S50000x128.size a
  hwx0_12 : ∀ i : grid0.Coords, EltTy.bits .bf16 = 32 ∨ (Rect.block (s := S50000x128) S5000x128.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .bf16 = 32 ∨ (Rect.block (s := S500000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S500000x128.size a
  hwx1_2 : ∀ i : grid1.Coords, EltTy.bits .bf16 = 32 ∨ (Rect.block (s := S500000x128) S5000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x4.size a ≤ S500000x4.size a
  hwx1_3 : ∀ i : grid1.Coords, EltTy.bits .f32 = 32 ∨ (Rect.block (s := S500000x4) S5000x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x256.size a ≤ S384x256.size a
  hwx1_4 : ∀ i : grid1.Coords, EltTy.bits .f32 = 32 ∨ (Rect.block (s := S384x256) S384x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .f32 = 32 ∨ (Rect.block (s := S128x1) S128x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x3.size a ≤ S128x3.size a
  hwx1_8 : ∀ i : grid1.Coords, EltTy.bits .f32 = 32 ∨ (Rect.block (s := S128x3) S128x3.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S3.size a ≤ S3.size a
  hwx1_9 : ∀ i : grid1.Coords, EltTy.bits .f32 = 32 ∨ (Rect.block (s := S3) S3.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x2.size a ≤ S500000x2.size a
  hwx1_10 : ∀ i : grid1.Coords, EltTy.bits .f32 = 32 ∨ (Rect.block (s := S500000x2) S5000x2.size (cc1_transform_10 i) (hinb1_10 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S50000x4_S500000x1_S500000x4_1_0_n_n_0_1_14 : GatherDims S50000x4 S500000x1 S500000x4 where
  offsetDims := [1]
  collapsedSliceDims := [0]
  operandBatchingDims := []
  startIndicesBatchingDims := []
  startIndexMap := [0]
  indexVectorDim := 1
  sliceSizes := ![1, 4]
  wf := gather_S50000x4_S500000x1_S500000x4_1_0_n_n_0_1_14_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000x2_S500000x1_S500000x2_1_0_0_1 : ScatterDims S50000x2 S500000x1 S500000x2 where
  updateWindowDims := [1]
  insertedWindowDims := [0]
  scatterDimsToOperandDims := [0]
  indexVectorDim := 1
  wf := scatter_S50000x2_S500000x1_S500000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg17) S128x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg18) S3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S5000x10.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S5000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x4.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34) S384x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg21) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg22) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg25) S128x3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg26) S3.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v36) S5000x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x128 : Shape := ⟨2, ![500000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S128x1 : Shape := ⟨2, ![128, 1]⟩
abbrev S1 : Shape := ⟨1, ![1]⟩
abbrev S128x3 : Shape := ⟨2, ![128, 3]⟩
abbrev S3 : Shape := ⟨1, ![3]⟩
abbrev S384x128 : Shape := ⟨2, ![384, 128]⟩
abbrev S1x500000 : Shape := ⟨2, ![1, 500000]⟩
abbrev S500000 : Shape := ⟨1, ![500000]⟩
abbrev S1x128 : Shape := ⟨2, ![1, 128]⟩
abbrev S_ : Shape := ⟨0, ![]⟩
abbrev S50000x2 : Shape := ⟨2, ![50000, 2]⟩
abbrev S1x2 : Shape := ⟨2, ![1, 2]⟩
abbrev S50000x2x1 : Shape := ⟨3, ![50000, 2, 1]⟩
abbrev S50000x1 : Shape := ⟨2, ![50000, 1]⟩
abbrev S1x1 : Shape := ⟨2, ![1, 1]⟩
abbrev S50000x3 : Shape := ⟨2, ![50000, 3]⟩
abbrev S1x3 : Shape := ⟨2, ![1, 3]⟩
abbrev S500000x1 : Shape := ⟨2, ![500000, 1]⟩
abbrev S500000x384 : Shape := ⟨2, ![500000, 384]⟩
abbrev S500000x3 : Shape := ⟨2, ![500000, 3]⟩
abbrev S50000x2x2 : Shape := ⟨3, ![50000, 2, 2]⟩
abbrev S3x1 : Shape := ⟨2, ![3, 1]⟩
abbrev S3x2 : Shape := ⟨2, ![3, 2]⟩
abbrev S500000x2x2 : Shape := ⟨3, ![500000, 2, 2]⟩
abbrev S500000x2x1 : Shape := ⟨3, ![500000, 2, 1]⟩
abbrev S500000x2 : Shape := ⟨2, ![500000, 2]⟩

abbrev nBuf : Space → Nat
  | .hbm => 261
  | .vmem => 0
  | .smem => 0
  | _ => 0

abbrev hbmTy0_0 (i : Nat) : BufTy := match i % 128 with
  | 0 => ⟨S50000x128, .f32⟩
  | 1 => ⟨S2x500000, .i32⟩
  | 2 => ⟨S500000x128, .f32⟩
  | 3 => ⟨S128x128, .f32⟩
  | 4 => ⟨S128, .f32⟩
  | 5 => ⟨S128x2, .f32⟩
  | 6 => ⟨S2, .f32⟩
  | 7 => ⟨S128x128, .f32⟩
  | 8 => ⟨S128, .f32⟩
  | 9 => ⟨S128x2, .f32⟩
  | 10 => ⟨S2, .f32⟩
  | 11 => ⟨S128x128, .f32⟩
  | 12 => ⟨S128, .f32⟩
  | 13 => ⟨S128x1, .f32⟩
  | 14 => ⟨S1, .f32⟩
  | 15 => ⟨S128x128, .f32⟩
  | 16 => ⟨S128, .f32⟩
  | 17 => ⟨S128x3, .f32⟩
  | 18 => ⟨S3, .f32⟩
  | 19 => ⟨S384x128, .f32⟩
  | 20 => ⟨S128, .f32⟩
  | 21 => ⟨S128x1, .f32⟩
  | 22 => ⟨S1, .f32⟩
  | 23 => ⟨S384x128, .f32⟩
  | 24 => ⟨S128, .f32⟩
  | 25 => ⟨S128x3, .f32⟩
  | 26 => ⟨S3, .f32⟩
  | 27 => ⟨S1, .i32⟩
  | 28 => ⟨S1, .i1⟩
  | 29 => ⟨S1, .i32⟩
  | 30 => ⟨S1, .i1⟩
  | 31 => ⟨S3, .i32⟩
  | 32 => ⟨S3, .i1⟩
  | 33 => ⟨S3, .i32⟩
  | 34 => ⟨S3, .i1⟩
  | 35 => ⟨S1, .i1⟩
  | 36 => ⟨S1, .i1⟩
  | 37 => ⟨S3, .i1⟩
  | 38 => ⟨S3, .i1⟩
  | 39 => ⟨S1x500000, .i32⟩
  | 40 => ⟨S500000, .i32⟩
  | 41 => ⟨S1x500000, .i32⟩
  | 42 => ⟨S500000, .i32⟩
  | 43 => ⟨S50000x128, .f32⟩
  | 44 => ⟨S1x128, .f32⟩
  | 45 => ⟨S50000x128, .f32⟩
  | 46 => ⟨S50000x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S50000x2, .f32⟩
  | 57 => ⟨S1x2, .f32⟩
  | 58 => ⟨S50000x2, .f32⟩
  | 59 => ⟨S50000x2, .f32⟩
  | 60 => ⟨S50000x2x1, .f32⟩
  | 61 => ⟨S50000x128, .f32⟩
  | 62 => ⟨S1x128, .f32⟩
  | 63 => ⟨S50000x128, .f32⟩
  | 64 => ⟨S50000x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S50000x2, .f32⟩
  | 75 => ⟨S1x2, .f32⟩
  | 76 => ⟨S50000x2, .f32⟩
  | 77 => ⟨S50000x2, .f32⟩
  | 78 => ⟨S50000x2x1, .f32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S50000x1, .f32⟩
  | 93 => ⟨S1x1, .f32⟩
  | 94 => ⟨S50000x1, .f32⟩
  | 95 => ⟨S50000x1, .f32⟩
  | 96 => ⟨S50000x128, .f32⟩
  | 97 => ⟨S1x128, .f32⟩
  | 98 => ⟨S50000x128, .f32⟩
  | 99 => ⟨S50000x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000x3, .f32⟩
  | 110 => ⟨S1x3, .f32⟩
  | 111 => ⟨S50000x3, .f32⟩
  | 112 => ⟨S50000x3, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x128, .f32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S50000x128, .f32⟩

abbrev hbmTy0_1 (i : Nat) : BufTy := match i % 128 with
  | 0 => ⟨S500000, .i32⟩
  | 1 => ⟨S500000x1, .i32⟩
  | 2 => ⟨S500000x128, .f32⟩
  | 3 => ⟨S500000x384, .f32⟩
  | 4 => ⟨S500000x128, .f32⟩
  | 5 => ⟨S1x128, .f32⟩
  | 6 => ⟨S500000x128, .f32⟩
  | 7 => ⟨S500000x128, .f32⟩
  | 8 => ⟨S500000x128, .f32⟩
  | 9 => ⟨S500000x128, .f32⟩
  | 10 => ⟨S_, .f32⟩
  | 11 => ⟨S500000x128, .f32⟩
  | 12 => ⟨S500000x128, .f32⟩
  | 13 => ⟨S_, .f32⟩
  | 14 => ⟨S500000x128, .f32⟩
  | 15 => ⟨S500000x128, .f32⟩
  | 16 => ⟨S500000x128, .f32⟩
  | 17 => ⟨S500000x1, .f32⟩
  | 18 => ⟨S1x1, .f32⟩
  | 19 => ⟨S500000x1, .f32⟩
  | 20 => ⟨S500000x1, .f32⟩
  | 21 => ⟨S500000x128, .f32⟩
  | 22 => ⟨S1x128, .f32⟩
  | 23 => ⟨S500000x128, .f32⟩
  | 24 => ⟨S500000x128, .f32⟩
  | 25 => ⟨S500000x128, .f32⟩
  | 26 => ⟨S500000x128, .f32⟩
  | 27 => ⟨S_, .f32⟩
  | 28 => ⟨S500000x128, .f32⟩
  | 29 => ⟨S500000x128, .f32⟩
  | 30 => ⟨S_, .f32⟩
  | 31 => ⟨S500000x128, .f32⟩
  | 32 => ⟨S500000x128, .f32⟩
  | 33 => ⟨S500000x128, .f32⟩
  | 34 => ⟨S500000x3, .f32⟩
  | 35 => ⟨S1x3, .f32⟩
  | 36 => ⟨S500000x3, .f32⟩
  | 37 => ⟨S500000x3, .f32⟩
  | 38 => ⟨S_, .f32⟩
  | 39 => ⟨S50000x2x2, .f32⟩
  | 40 => ⟨S_, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S1, .i32⟩
  | 48 => ⟨S1x1, .i32⟩
  | 49 => ⟨S1x1, .i32⟩
  | 50 => ⟨S1x2, .i32⟩
  | 51 => ⟨S50000x2x2, .f32⟩
  | 52 => ⟨S50000x2x2, .f32⟩
  | 53 => ⟨S50000x2x2, .f32⟩
  | 54 => ⟨S_, .f32⟩
  | 55 => ⟨S50000x2x2, .f32⟩
  | 56 => ⟨S_, .i32⟩
  | 57 => ⟨S3, .i32⟩
  | 58 => ⟨S3, .i32⟩
  | 59 => ⟨S3, .i32⟩
  | 60 => ⟨S_, .i32⟩
  | 61 => ⟨S3, .i32⟩
  | 62 => ⟨S3, .i32⟩
  | 63 => ⟨S3, .i32⟩
  | 64 => ⟨S3x1, .i32⟩
  | 65 => ⟨S3x1, .i32⟩
  | 66 => ⟨S3x2, .i32⟩
  | 67 => ⟨S50000x2x2, .f32⟩
  | 68 => ⟨S50000x2x2, .f32⟩
  | 69 => ⟨S_, .f32⟩
  | 70 => ⟨S500000x2x2, .f32⟩
  | 71 => ⟨S_, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1x1, .i32⟩
  | 80 => ⟨S1x1, .i32⟩
  | 81 => ⟨S1x2, .i32⟩
  | 82 => ⟨S500000x2x2, .f32⟩
  | 83 => ⟨S500000x2x2, .f32⟩
  | 84 => ⟨S500000x2x2, .f32⟩
  | 85 => ⟨S_, .f32⟩
  | 86 => ⟨S500000x2x2, .f32⟩
  | 87 => ⟨S_, .i32⟩
  | 88 => ⟨S3, .i32⟩
  | 89 => ⟨S3, .i32⟩
  | 90 => ⟨S3, .i32⟩
  | 91 => ⟨S_, .i32⟩
  | 92 => ⟨S3, .i32⟩
  | 93 => ⟨S3, .i32⟩
  | 94 => ⟨S3, .i32⟩
  | 95 => ⟨S3x1, .i32⟩
  | 96 => ⟨S3x1, .i32⟩
  | 97 => ⟨S3x2, .i32⟩
  | 98 => ⟨S500000x2x2, .f32⟩
  | 99 => ⟨S500000x2x2, .f32⟩
  | 100 => ⟨S50000x2x1, .f32⟩
  | 101 => ⟨S50000x2x1, .f32⟩
  | 102 => ⟨S50000x2x1, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x2x1, .f32⟩
  | 112 => ⟨S500000x2x1, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x2x1, .f32⟩
  | 122 => ⟨S500000x2x1, .f32⟩
  | 123 => ⟨S500000x2x1, .f32⟩
  | 124 => ⟨S50000x2, .f32⟩
  | 125 => ⟨S500000x2, .f32⟩
  | 126 => ⟨S_, .f32⟩
  | 127 => ⟨S50000x2, .f32⟩
  | _ => ⟨S50000x128, .f32⟩

abbrev hbmTy0_2 (i : Nat) : BufTy := match i % 128 with
  | 0 => ⟨S500000x1, .i32⟩
  | 1 => ⟨S50000x2, .f32⟩
  | 2 => ⟨S50000x2, .f32⟩
  | 3 => ⟨S50000x2x1, .f32⟩
  | 4 => ⟨S50000x2x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_c_0 : Ref sig .tc := ⟨.hbm, 28, rfl⟩
abbrev main_c_1 : Ref sig .tc := ⟨.hbm, 29, rfl⟩
abbrev main_c_2 : Ref sig .tc := ⟨.hbm, 30, rfl⟩
abbrev main_c_3 : Ref sig .tc := ⟨.hbm, 31, rfl⟩
abbrev main_c_4 : Ref sig .tc := ⟨.hbm, 32, rfl⟩
abbrev main_c_5 : Ref sig .tc := ⟨.hbm, 33, rfl⟩
abbrev main_c_6 : Ref sig .tc := ⟨.hbm, 34, rfl⟩
abbrev main_c_7 : Ref sig .tc := ⟨.hbm, 35, rfl⟩
abbrev main_c_8 : Ref sig .tc := ⟨.hbm, 36, rfl⟩
abbrev main_c_9 : Ref sig .tc := ⟨.hbm, 37, rfl⟩
abbrev main_c_10 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_c_11 : Ref sig .tc := ⟨.hbm, 113, rfl⟩
abbrev main_v42 : Ref sig .tc := ⟨.hbm, 114, rfl⟩
abbrev main_v43 : Ref sig .tc := ⟨.hbm, 115, rfl⟩
abbrev main_c_12 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_c_13 : Ref sig .tc := ⟨.hbm, 122, rfl⟩
abbrev main_v49 : Ref sig .tc := ⟨.hbm, 123, rfl⟩
abbrev main_v50 : Ref sig .tc := ⟨.hbm, 124, rfl⟩
abbrev main_c_14 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_cst : Ref sig .tc := ⟨.hbm, 166, rfl⟩
abbrev main_v75 : Ref sig .tc := ⟨.hbm, 167, rfl⟩
abbrev main_c_15 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_c_16 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_cst_17 : Ref sig .tc := ⟨.hbm, 182, rfl⟩
abbrev main_v88 : Ref sig .tc := ⟨.hbm, 183, rfl⟩
abbrev main_c_18 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_c_19 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_cst_20 : Ref sig .tc := ⟨.hbm, 197, rfl⟩
abbrev main_v100 : Ref sig .tc := ⟨.hbm, 198, rfl⟩
abbrev main_c_21 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_c_22 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_cst_23 : Ref sig .tc := ⟨.hbm, 213, rfl⟩
abbrev main_v113 : Ref sig .tc := ⟨.hbm, 214, rfl⟩
abbrev main_c_24 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_c_25 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_c_26 : Ref sig .tc := ⟨.hbm, 231, rfl⟩
abbrev main_v128 : Ref sig .tc := ⟨.hbm, 232, rfl⟩
abbrev main_v129 : Ref sig .tc := ⟨.hbm, 233, rfl⟩
abbrev main_c_27 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_c_28 : Ref sig .tc := ⟨.hbm, 241, rfl⟩
abbrev main_v136 : Ref sig .tc := ⟨.hbm, 242, rfl⟩
abbrev main_v137 : Ref sig .tc := ⟨.hbm, 243, rfl⟩
abbrev main_c_29 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_cst_30 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S50000x2_S50000x2x1_0_1 : S50000x2.BroadcastsInDim S50000x2x1 (![0, 1] : Fin 2 → Fin S50000x2x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1x1_S500000x1_0_1 : S1x1.BroadcastsInDim S500000x1 (![0, 1] : Fin 2 → Fin S500000x1.rank)
  bcast_S1x3_S500000x3_0_1 : S1x3.BroadcastsInDim S500000x3 (![0, 1] : Fin 2 → Fin S500000x3.rank)
  bcast_S_S50000x2x2 : S_.BroadcastsInDim S50000x2x2 (![] : Fin 0 → Fin S50000x2x2.rank)
  bcast_S_S1 : S_.BroadcastsInDim S1 (![] : Fin 0 → Fin S1.rank)
  bcast_S1_S1x1_0 : S1.BroadcastsInDim S1x1 (![0] : Fin 1 → Fin S1x1.rank)
  concatenates_S1x1_S1x1_S1x2_d1 : Shape.Concatenates [S1x1, S1x1] S1x2 1
  transposes_S50000x2x2_S50000x2x2_0_2_1 : S50000x2x2.Transposes [0, 2, 1] S50000x2x2
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  bcast_S_S500000x2x2 : S_.BroadcastsInDim S500000x2x2 (![] : Fin 0 → Fin S500000x2x2.rank)
  transposes_S500000x2x2_S500000x2x2_0_2_1 : S500000x2x2.Transposes [0, 2, 1] S500000x2x2
  shapeCasts_S50000x2x1_S50000x2 : S50000x2x1.ShapeCasts S50000x2
  shapeCasts_S500000x2x1_S500000x2 : S500000x2x1.ShapeCasts S500000x2
  bcast_S_S50000x2 : S_.BroadcastsInDim S50000x2 (![] : Fin 0 → Fin S50000x2.rank)
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []
  dot_S50000x128_S128x1_S50000x1_1_0_0_1_n_n_wf : DotDims.WF S50000x128 S128x1 S50000x1 [1] [0] [0] [1] [] []
  dot_S50000x128_S128x3_S50000x3_1_0_0_1_n_n_wf : DotDims.WF S50000x128 S128x3 S50000x3 [1] [0] [0] [1] [] []
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x1_S500000x1_1_0_0_1_n_n_wf : DotDims.WF S500000x128 S128x1 S500000x1 [1] [0] [0] [1] [] []
  dot_S500000x128_S128x3_S500000x3_1_0_0_1_n_n_wf : DotDims.WF S500000x128 S128x3 S500000x3 [1] [0] [0] [1] [] []
  scatter_S50000x2x2_S1x2_S50000x1_0_12_12_1_wf : ScatterDims.WF S50000x2x2 S1x2 S50000x1 [0] [1, 2] [1, 2] 1
  scatter_S50000x2x2_S3x2_S50000x3_0_12_12_1_wf : ScatterDims.WF S50000x2x2 S3x2 S50000x3 [0] [1, 2] [1, 2] 1
  dot_S50000x2x2_S50000x2x2_S50000x2x2_2_2_1_1_0_0_wf : DotDims.WF S50000x2x2 S50000x2x2 S50000x2x2 [2] [2] [1] [1] [0] [0]
  scatter_S500000x2x2_S1x2_S500000x1_0_12_12_1_wf : ScatterDims.WF S500000x2x2 S1x2 S500000x1 [0] [1, 2] [1, 2] 1
  scatter_S500000x2x2_S3x2_S500000x3_0_12_12_1_wf : ScatterDims.WF S500000x2x2 S3x2 S500000x3 [0] [1, 2] [1, 2] 1
  dot_S500000x2x2_S500000x2x2_S500000x2x2_2_2_1_1_0_0_wf : DotDims.WF S500000x2x2 S500000x2x2 S500000x2x2 [2] [2] [1] [1] [0] [0]
  dot_S50000x2x2_S50000x2x1_S50000x2x1_2_1_1_2_0_0_wf : DotDims.WF S50000x2x2 S50000x2x1 S50000x2x1 [2] [1] [1] [2] [0] [0]
  gather_S50000x2x1_S500000x1_S500000x2x1_12_0_n_n_0_1_121_wf : GatherDims.WF S50000x2x1 S500000x1 S500000x2x1 [1, 2] [0] [] [0] [] 1 ![1, 2, 1]
  dot_S500000x2x2_S500000x2x1_S500000x2x1_2_1_1_2_0_0_wf : DotDims.WF S500000x2x2 S500000x2x1 S500000x2x1 [2] [1] [1] [2] [0] [0]
  scatter_S50000x2_S500000x1_S500000x2_1_0_0_1_wf : ScatterDims.WF S50000x2 S500000x1 S500000x2 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def dot_S500000x128_S128x3_S500000x3_1_0_0_1_n_n : DotDims S500000x128 S128x3 S500000x3 where
  lhsContracting := [1]
  rhsContracting := [0]
  lhsNonContracting := [0]
  rhsNonContracting := [1]
  lhsBatch := []
  rhsBatch := []
  wf := dot_S500000x128_S128x3_S500000x3_1_0_0_1_n_n_wf
def scatter_S50000x2x2_S1x2_S50000x1_0_12_12_1 : ScatterDims S50000x2x2 S1x2 S50000x1 where
  updateWindowDims := [0]
  insertedWindowDims := [1, 2]
  scatterDimsToOperandDims := [1, 2]
  indexVectorDim := 1
  wf := scatter_S50000x2x2_S1x2_S50000x1_0_12_12_1_wf
def scatter_S50000x2x2_S3x2_S50000x3_0_12_12_1 : ScatterDims S50000x2x2 S3x2 S50000x3 where
  updateWindowDims := [0]
  insertedWindowDims := [1, 2]
  scatterDimsToOperandDims := [1, 2]
  indexVectorDim := 1
  wf := scatter_S50000x2x2_S3x2_S50000x3_0_12_12_1_wf
def dot_S50000x2x2_S50000x2x2_S50000x2x2_2_2_1_1_0_0 : DotDims S50000x2x2 S50000x2x2 S50000x2x2 where
  lhsContracting := [2]
  rhsContracting := [2]
  lhsNonContracting := [1]
  rhsNonContracting := [1]
  lhsBatch := [0]
  rhsBatch := [0]
  wf := dot_S50000x2x2_S50000x2x2_S50000x2x2_2_2_1_1_0_0_wf
def scatter_S500000x2x2_S1x2_S500000x1_0_12_12_1 : ScatterDims S500000x2x2 S1x2 S500000x1 where
  updateWindowDims := [0]
  insertedWindowDims := [1, 2]
  scatterDimsToOperandDims := [1, 2]
  indexVectorDim := 1
  wf := scatter_S500000x2x2_S1x2_S500000x1_0_12_12_1_wf
def scatter_S500000x2x2_S3x2_S500000x3_0_12_12_1 : ScatterDims S500000x2x2 S3x2 S500000x3 where
  updateWindowDims := [0]
  insertedWindowDims := [1, 2]
  scatterDimsToOperandDims := [1, 2]
  indexVectorDim := 1
  wf := scatter_S500000x2x2_S3x2_S500000x3_0_12_12_1_wf
def dot_S500000x2x2_S500000x2x2_S500000x2x2_2_2_1_1_0_0 : DotDims S500000x2x2 S500000x2x2 S500000x2x2 where
  lhsContracting := [2]
  rhsContracting := [2]
  lhsNonContracting := [1]
  rhsNonContracting := [1]
  lhsBatch := [0]
  rhsBatch := [0]
  wf := dot_S500000x2x2_S500000x2x2_S500000x2x2_2_2_1_1_0_0_wf
def dot_S50000x2x2_S50000x2x1_S50000x2x1_2_1_1_2_0_0 : DotDims S50000x2x2 S50000x2x1 S50000x2x1 where
  lhsContracting := [2]
  rhsContracting := [1]
  lhsNonContracting := [1]
  rhsNonContracting := [2]
  lhsBatch := [0]
  rhsBatch := [0]
  wf := dot_S50000x2x2_S50000x2x1_S50000x2x1_2_1_1_2_0_0_wf
def gather_S50000x2x1_S500000x1_S500000x2x1_12_0_n_n_0_1_121 : GatherDims S50000x2x1 S500000x1 S500000x2x1 where
  offsetDims := [1, 2]
  collapsedSliceDims := [0]
  operandBatchingDims := []
  startIndicesBatchingDims := []
  startIndexMap := [0]
  indexVectorDim := 1
  sliceSizes := ![1, 2, 1]
  wf := gather_S50000x2x1_S500000x1_S500000x2x1_12_0_n_n_0_1_121_wf
def dot_S500000x2x2_S500000x2x1_S500000x2x1_2_1_1_2_0_0 : DotDims S500000x2x2 S500000x2x1 S500000x2x1 where
  lhsContracting := [2]
  rhsContracting := [1]
  lhsNonContracting := [1]
  rhsNonContracting := [2]
  lhsBatch := [0]
  rhsBatch := [0]
  wf := dot_S500000x2x2_S500000x2x1_S500000x2x1_2_1_1_2_0_0_wf
def scatter_S50000x2_S500000x1_S500000x2_1_0_0_1 : ScatterDims S50000x2 S500000x1 S500000x2 where
  updateWindowDims := [1]
  insertedWindowDims := [0]
  scatterDimsToOperandDims := [0]
  indexVectorDim := 1
  wf := scatter_S50000x2_S500000x1_S500000x2_1_0_0_1_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-- z ↦ z / (1 + e^(−z)). -/
def silu (z : EReal) : EReal := z * Ideal.logistic z

/-- An entry of a linear layer: Σₖ x n k · W k j + b j. -/
def lin {R K C : Nat} (x : Fin R → Fin K → EReal) (W : Arr2 K C) (b : Arr1 C) (n : Fin R) (j : Fin C) : EReal :=
  (∑ k : Fin K, x n k * W (ix2 k j)) + b (ix1 j)

def out {R H O : Nat} (h : Fin R → Fin H → EReal) (W : Arr2 H O) (b : Arr1 O) (n : Fin R) (o : Fin O) : EReal :=
  (∑ j : Fin H, h n j * W (ix2 j o)) + b (ix1 o)

/-- A two-layer head: linear, silu, linear. -/
def mlp {R K H O : Nat} (x : Fin R → Fin K → EReal) (W1 : Arr2 K H) (b1 : Arr1 H) (W2 : Arr2 H O) (b2 : Arr1 O)
    (n : Fin R) (o : Fin O) : EReal :=
  out (fun n j => silu (lin x W1 b1 n j)) W2 b2 n o

/-- The entries of L·v for L = [[0, −l], [l, 0]] and of M·w for M = T·Tᵀ, T = [[m₀, 0], [m₁, m₂]]. -/
def Lv0 (l v1 : EReal) : EReal := (0 - l) * v1
def Lv1 (l v0 : EReal) : EReal := l * v0

def Mw0 (m0 m1 w0 w1 : EReal) : EReal := m0 * m0 * w0 + m0 * m1 * w1
def Mw1 (m0 m1 m2 w0 w1 : EReal) : EReal := m0 * m1 * w0 + (m1 * m1 + m2 * m2) * w1

structure NodeP where
  x : Arr2 50000 128
  EgW1 : Arr2 128 128
  Egb1 : Arr1 128
  EgW2 : Arr2 128 2
  Egb2 : Arr1 2
  SgW1 : Arr2 128 128
  Sgb1 : Arr1 128
  SgW2 : Arr2 128 2
  Sgb2 : Arr1 2
  LnW1 : Arr2 128 128
  Lnb1 : Arr1 128
  LnW2 : Arr2 128 1
  Lnb2 : Arr1 1
  MnW1 : Arr2 128 128
  Mnb1 : Arr1 128
  MnW2 : Arr2 128 3
  Mnb2 : Arr1 3

namespace NodeP
variable (P : NodeP)

def xr (n : Fin 50000) (k : Fin 128) : EReal := P.x (ix2 n k)
def dE (n : Fin 50000) (o : Fin 2) : EReal := mlp P.xr P.EgW1 P.Egb1 P.EgW2 P.Egb2 n o
def dS (n : Fin 50000) (o : Fin 2) : EReal := mlp P.xr P.SgW1 P.Sgb1 P.SgW2 P.Sgb2 n o
def ln (n : Fin 50000) : EReal := mlp P.xr P.LnW1 P.Lnb1 P.LnW2 P.Lnb2 n 0
def mn (n : Fin 50000) (o : Fin 3) : EReal := mlp P.xr P.MnW1 P.Mnb1 P.MnW2 P.Mnb2 n o

/-- L·dE + M·dS. -/
def nt (n : Fin 50000) : Fin 2 → EReal
  | ⟨0, _⟩ => Lv0 (P.ln n) (P.dE n 1) + Mw0 (P.mn n 0) (P.mn n 1) (P.dS n 0) (P.dS n 1)
  | ⟨1, _⟩ => Lv1 (P.ln n) (P.dE n 0) + Mw1 (P.mn n 0) (P.mn n 1) (P.mn n 2) (P.dS n 0) (P.dS n 1)

/-- M·dE. -/
def degE (n : Fin 50000) : Fin 2 → EReal
  | ⟨0, _⟩ => Mw0 (P.mn n 0) (P.mn n 1) (P.dE n 0) (P.dE n 1)
  | ⟨1, _⟩ => Mw1 (P.mn n 0) (P.mn n 1) (P.mn n 2) (P.dE n 0) (P.dE n 1)

/-- L·dS. -/
def degS (n : Fin 50000) : Fin 2 → EReal
  | ⟨0, _⟩ => Lv0 (P.ln n) (P.dS n 1)
  | ⟨1, _⟩ => Lv1 (P.ln n) (P.dS n 0)

/-- The ten columns kept per node: dE, dS, L·dE + M·dS, M·dE, L·dS. -/
def node10 (n : Fin 50000) : Fin 10 → EReal
  | ⟨0, _⟩ => P.dE n 0
  | ⟨1, _⟩ => P.dE n 1
  | ⟨2, _⟩ => P.dS n 0
  | ⟨3, _⟩ => P.dS n 1
  | ⟨4, _⟩ => P.nt n 0
  | ⟨5, _⟩ => P.nt n 1
  | ⟨6, _⟩ => P.degE n 0
  | ⟨7, _⟩ => P.degE n 1
  | ⟨8, _⟩ => P.degS n 0
  | ⟨9, _⟩ => P.degS n 1

def node10A : Arr2 50000 10 := fun y => P.node10 (y 0) (y 1)
def ntA : Arr2 50000 2 := fun y => P.nt (y 0) (y 1)
def degEA : Arr3 50000 2 1 := fun y => P.degE (y 0) (y 1)
def degSA : Arr3 50000 2 1 := fun y => P.degS (y 0) (y 1)

end NodeP

/-- Rows 0–127 of a 384-row first-layer weight meet the edge's own features, 128–255 its sender's, 256–383 its receiver's. -/
structure EdgeP where
  ea : Arr2 500000 128
  LeW1 : Arr2 384 128
  Leb1 : Arr1 128
  LeW2 : Arr2 128 1
  Leb2 : Arr1 1
  MeW1 : Arr2 384 128
  Meb1 : Arr1 128
  MeW2 : Arr2 128 3
  Meb2 : Arr1 3

/-- The node an index array names for edge e: the entry read signed and clamped to the node range. -/
def rowOf (idx : IVec ⟨2, ![500000, 1]⟩ 32) (e : Fin 500000) : Fin 50000 :=
  ⟨min (idx (ix2 e 0)).toInt.toNat (50000 - 1), by omega⟩

namespace EdgeP
variable (Q : EdgeP) (P : NodeP) (s r : Fin 500000 → Fin 50000)

/-- The 384-wide first layer as three 128-wide sums, grouped ((own + sender) + receiver) + bias. -/
def pre (W1 : Arr2 384 128) (b1 : Arr1 128) (e : Fin 500000) (j : Fin 128) : EReal :=
  (((∑ k : Fin 128, Q.ea (ix2 e k) * W1 (ix2 (⟨k.val, by omega⟩ : Fin 384) j))
      + ∑ k : Fin 128, P.x (ix2 (s e) k) * W1 (ix2 (⟨128 + k.val, by omega⟩ : Fin 384) j))
    + ∑ k : Fin 128, P.x (ix2 (r e) k) * W1 (ix2 (⟨256 + k.val, by omega⟩ : Fin 384) j))
  + b1 (ix1 j)

def le (e : Fin 500000) : EReal :=
  out (fun e j => silu (Q.pre P s r Q.LeW1 Q.Leb1 e j)) Q.LeW2 Q.Leb2 e 0
def me (e : Fin 500000) (o : Fin 3) : EReal :=
  out (fun e j => silu (Q.pre P s r Q.MeW1 Q.Meb1 e j)) Q.MeW2 Q.Meb2 e o

/-- L(e)·dE(s e) + M(e)·dS(s e). -/
def et (e : Fin 500000) : Fin 2 → EReal
  | ⟨0, _⟩ => Lv0 (Q.le P s r e) (P.dE (s e) 1) + Mw0 (Q.me P s r e 0) (Q.me P s r e 1) (P.dS (s e) 0) (P.dS (s e) 1)
  | ⟨1, _⟩ => Lv1 (Q.le P s r e) (P.dE (s e) 0)
      + Mw1 (Q.me P s r e 0) (Q.me P s r e 1) (Q.me P s r e 2) (P.dS (s e) 0) (P.dS (s e) 1)

def etA : Arr2 500000 2 := fun y => Q.et P s r (y 0) (y 1)

end EdgeP

section Gather
variable {α : Type}

/-- Gathering whole rows: operand [N, C], one start index per result row, result [R, C]. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A start index is clamped so that its slice stays inside the operand; a slice here is one whole row, so only the row number is clamped. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowDims N R C wf) x idx (ix2 e k)
      = x (ix2 (⟨min (idx (ix2 e 0)).toInt.toNat (N - 1), by omega⟩ : Fin N) k) := by
  unfold Host.gather
  refine congrArg x (funext fun a => Fin.ext ?_)
  have h10 : (1 : Fin 2) ∉ [(0 : Fin 2)] := by decide
  match a with
  | ⟨0, _⟩ =>
    show (rowDims N R C wf).start (ix2 e k) idx 0 + (rowDims N R C wf).batchCoord (ix2 e k) 0
      + (rowDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e k) ⟨List.idxOf (0 : Fin 2) (rowDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N R C wf).start (ix2 e k) idx 1 + (rowDims N R C wf).batchCoord (ix2 e k) 1
      + (rowDims N R C wf).offCoord (ix2 e k) 1 = k.val
    rw [GatherDims.batchCoord_eq_zero _ _ _ List.not_mem_nil]
    have hs : (rowDims N R C wf).start (ix2 e k) idx 1 = 0 := by
      unfold GatherDims.start
      rw [dif_neg (show ¬ (1 : Fin 2) ∈ (rowDims N R C wf).startIndexMap from h10)]
    have ho : (rowDims N R C wf).offCoord (ix2 e k) 1 = k.val := by
      unfold GatherDims.offCoord
      rw [dif_pos ((GatherDims.mem_sKept _ _).2 ⟨h10, List.not_mem_nil⟩)]
      rfl
    rw [hs, ho]
    omega

end Gather

end Cert.Spec

end
-- ==== Proof.KRegion0.lean ====
import proofs.«406161_j39298950758847_3_alg».proof.Proof.Gen.Kernel.Launch
import proofs.«406161_j39298950758847_3_alg».proof.Proof.Gen.Kernel.Skeleton
import proofs.«406161_j39298950758847_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_S5000x128 : Rect S5000x128 := Rect.unit (s := S5000x128) ![0, 0] S5000x128.size inb_S5000x128_S5000x128_0_0
abbrev r0_S128x512 : Rect S128x512 := Rect.unit (s := S128x512) ![0, 0] S128x512.size inb_S128x512_S128x512_0_0
abbrev r0_S512 : Rect S512 := Rect.unit (s := S512) ![0] S512.size inb_S512_S512_0
abbrev r0_S128x2 : Rect S128x2 := Rect.unit (s := S128x2) ![0, 0] S128x2.size inb_S128x2_S128x2_0_0
abbrev r0_S2 : Rect S2 := Rect.unit (s := S2) ![0] S2.size inb_S2_S2_0
abbrev r0_S128x1 : Rect S128x1 := Rect.unit (s := S128x1) ![0, 0] S128x1.size inb_S128x1_S128x1_0_0
abbrev r0_S1 : Rect S1 := Rect.unit (s := S1) ![0] S1.size inb_S1_S1_0
abbrev r0_S128x3 : Rect S128x3 := Rect.unit (s := S128x3) ![0, 0] S128x3.size inb_S128x3_S128x3_0_0
abbrev r0_S3 : Rect S3 := Rect.unit (s := S3) ![0] S3.size inb_S3_S3_0
abbrev r0_S5000x10 : Rect S5000x10 := Rect.unit (s := S5000x10) ![0, 0] S5000x10.size inb_S5000x10_S5000x10_0_0

def out0_11 (x0 : Vec F S5000x128 .f32) (x1 : Vec F S128x512 .f32) (x2 : Vec F S512 .f32) (x3 : Vec F S128x2 .f32) (x4 : Vec F S2 .f32) (x5 : Vec F S128x2 .f32) (x6 : Vec F S2 .f32) (x7 : Vec F S128x1 .f32) (x8 : Vec F S1 .f32) (x9 : Vec F S128x3 .f32) (x10 : Vec F S3 .f32) : Vec F S5000x10 .f32 :=
  View.canon [⟨r0_S5000x10, k0_pay7 (k0_pay3 (View.ld x0 r0_S5000x128) (View.ld x1 r0_S128x512) (View.ld x2 r0_S512)) (k0_pay4 (View.ld x0 r0_S5000x128) (View.ld x1 r0_S128x512) (View.ld x2 r0_S512) (View.ld x3 r0_S128x2) (View.ld x4 r0_S2)) (k0_pay5 (View.ld x0 r0_S5000x128) (View.ld x1 r0_S128x512) (View.ld x2 r0_S512) (View.ld x5 r0_S128x2) (View.ld x6 r0_S2)) (k0_pay6 (View.ld x0 r0_S5000x128) (View.ld x1 r0_S128x512) (View.ld x2 r0_S512) (View.ld x7 r0_S128x1) (View.ld x8 r0_S1)) (View.ld x9 r0_S128x3) (View.ld x10 r0_S3)⟩]

def out0_12 (x0 : Vec F S5000x128 .f32) : Vec F S5000x128 .bf16 :=
  View.canon [⟨r0_S5000x128, k0_pay1 (View.ld x0 r0_S5000x128)⟩]

theorem cover0_11 (p0 : Vec F S5000x10 .f32) (y : S5000x10.Idx) :
    ∃ pc ∈ ([⟨r0_S5000x10, p0⟩] : List (View.Piece (Elt F) S5000x10 .f32)), y ∈ pc.1.set :=
  View.cover_of_tiled [⟨r0_S5000x10, p0⟩] S5000x10.size (by rfl) y

theorem cover0_12 (p0 : Vec F S5000x128 .bf16) (y : S5000x128.Idx) :
    ∃ pc ∈ ([⟨r0_S5000x128, p0⟩] : List (View.Piece (Elt F) S5000x128 .bf16)), y ∈ pc.1.set :=
  View.cover_of_tiled [⟨r0_S5000x128, p0⟩] S5000x128.size (by rfl) y

set_option maxHeartbeats 1000000 in
/-- The body reads each input whole and stores each output whole, so what it leaves in an output is one function of the inputs' contents. -/
theorem sound_kernel0 (c : Dev nD) (E : Set ℕ) (i : grid0.Coords) (arg1 : Memref sig .tc .vmem S5000x128 .f32) (harg1 : arg1.IsWhole) (arg2 : Memref sig .tc .vmem S128x512 .f32) (harg2 : arg2.IsWhole) (arg3 : Memref sig .tc .vmem S512 .f32) (harg3 : arg3.IsWhole) (arg4 : Memref sig .tc .vmem S128x2 .f32) (harg4 : arg4.IsWhole) (arg5 : Memref sig .tc .vmem S2 .f32) (harg5 : arg5.IsWhole) (arg6 : Memref sig .tc .vmem S128x2 .f32) (harg6 : arg6.IsWhole) (arg7 : Memref sig .tc .vmem S2 .f32) (harg7 : arg7.IsWhole) (arg8 : Memref sig .tc .vmem S128x1 .f32) (harg8 : arg8.IsWhole) (arg9 : Memref sig .tc .vmem S1 .f32) (harg9 : arg9.IsWhole) (arg10 : Memref sig .tc .vmem S128x3 .f32) (harg10 : arg10.IsWhole) (arg11 : Memref sig .tc .vmem S3 .f32) (harg11 : arg11.IsWhole) (arg12 : Memref sig .tc .vmem S5000x10 .f32) (harg12 : arg12.IsWhole) (arg13 : Memref sig .tc .vmem S5000x128 .bf16) (harg13 : arg13.IsWhole)
    (x0 : Vec F S5000x128 .f32) (x1 : Vec F S128x512 .f32) (x2 : Vec F S512 .f32) (x3 : Vec F S128x2 .f32) (x4 : Vec F S2 .f32) (x5 : Vec F S128x2 .f32) (x6 : Vec F S2 .f32) (x7 : Vec F S128x1 .f32) (x8 : Vec F S1 .f32) (x9 : Vec F S128x3 .f32) (x10 : Vec F S3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out0_11 x0 x1 x2 x3 x4 x5 x6 x7 x8 x9 x10) ∗ owns (c : Thread nD τ) arg13 fullShare (out0_12 x0)) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12 arg13 harg13) K := by
  simp only [cc0__node_kernel_eq_skeleton]; unfold cc0__node_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  change _ ⊢ wp _ _ _ (bodyAt0 t) _
  dsimp only [bodyAt0]
  simp only [before0_0, before0_1, before0_2, before0_3, before0_4, before0_5, before0_6, before0_7, before0_8, before0_9, before0_10]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  iframe H0 H1 H2 H3 H4 H5 H6 H7 H8 H9 H10
  isplitl [H11]; · iexists _; iexact H11
  isplitl [H12]; · iexists _; iexact H12
  iintro H
  iframe

end Cert.Kernel.Reg

end
-- ==== Proof.KRegion1.lean ====
import proofs.«406161_j39298950758847_3_alg».proof.Proof.Gen.Kernel.Launch
import proofs.«406161_j39298950758847_3_alg».proof.Proof.Gen.Kernel.Skeleton
import proofs.«406161_j39298950758847_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0

abbrev r1_1 : Rect S384x256 := Rect.unit (s := S384x256) ![0, 0] S128x256.size inb_S384x256_S128x256_0_0
abbrev r1_2 : Rect S384x256 := Rect.unit (s := S384x256) ![128, 0] S128x256.size inb_S384x256_S128x256_128_0
abbrev r1_3 : Rect S384x256 := Rect.unit (s := S384x256) ![256, 0] S128x256.size inb_S384x256_S128x256_256_0

abbrev r1_4 : Rect S256 := Rect.unit (s := S256) ![0] S256.size inb_S256_S256_0
abbrev r1_5 : Rect S128x1 := Rect.unit (s := S128x1) ![0, 0] S128x1.size inb_S128x1_S128x1_0_0
abbrev r1_6 : Rect S1 := Rect.unit (s := S1) ![0] S1.size inb_S1_S1_0
abbrev r1_7 : Rect S128x3 := Rect.unit (s := S128x3) ![0, 0] S128x3.size inb_S128x3_S128x3_0_0
abbrev r1_8 : Rect S3 := Rect.unit (s := S3) ![0] S3.size inb_S3_S3_0
abbrev r1_9 : Rect S5000x4 := Rect.unit (s := S5000x4) ![0, 0] S5000x4.size inb_S5000x4_S5000x4_0_0
abbrev r1_10 : Rect S5000x2 := Rect.unit (s := S5000x2) ![0, 0] S5000x2.size inb_S5000x2_S5000x2_0_0

def out1_10 (x0 : Vec F S5000x128 .f32) (x1 : Vec F S5000x128 .bf16) (x2 : Vec F S5000x128 .bf16) (x3 : Vec F S5000x4 .f32) (x4 : Vec F S384x256 .f32) (x5 : Vec F S256 .f32) (x6 : Vec F S128x1 .f32) (x7 : Vec F S1 .f32) (x8 : Vec F S128x3 .f32) (x9 : Vec F S3 .f32) : Vec F S5000x2 .f32 :=
  View.canon [⟨r1_10, k1_pay1 (k1_pay3 (View.ld x0 r1_0) (View.ld x1 r1_0) (View.ld x2 r1_0) (View.ld x4 r1_1) (View.ld x4 r1_2) (View.ld x4 r1_3) (View.ld x5 r1_4)) (k1_pay4 (View.ld x0 r1_0) (View.ld x1 r1_0) (View.ld x2 r1_0) (View.ld x4 r1_1) (View.ld x4 r1_2) (View.ld x4 r1_3) (View.ld x5 r1_4) (View.ld x6 r1_5) (View.ld x7 r1_6)) (View.ld x8 r1_7) (View.ld x9 r1_8) (View.ld x3 r1_9)⟩]

theorem cover1_10 (p0 : Vec F S5000x2 .f32) (y : S5000x2.Idx) :
    ∃ pc ∈ ([⟨r1_10, p0⟩] : List (View.Piece (Elt F) S5000x2 .f32)), y ∈ pc.1.set :=
  View.cover_of_tiled [⟨r1_10, p0⟩] S5000x2.size (by rfl) y

set_option maxHeartbeats 1000000 in
/-- The body reads each input whole and stores each output whole, so what it leaves in an output is one function of the inputs' contents. -/
theorem sound_kernel1 (c : Dev nD) (E : Set ℕ) (i : grid1.Coords) (arg1 : Memref sig .tc .vmem S5000x128 .f32) (harg1 : arg1.IsWhole) (arg2 : Memref sig .tc .vmem S5000x128 .bf16) (harg2 : arg2.IsWhole) (arg3 : Memref sig .tc .vmem S5000x128 .bf16) (harg3 : arg3.IsWhole) (arg4 : Memref sig .tc .vmem S5000x4 .f32) (harg4 : arg4.IsWhole) (arg5 : Memref sig .tc .vmem S384x256 .f32) (harg5 : arg5.IsWhole) (arg6 : Memref sig .tc .vmem S256 .f32) (harg6 : arg6.IsWhole) (arg7 : Memref sig .tc .vmem S128x1 .f32) (harg7 : arg7.IsWhole) (arg8 : Memref sig .tc .vmem S1 .f32) (harg8 : arg8.IsWhole) (arg9 : Memref sig .tc .vmem S128x3 .f32) (harg9 : arg9.IsWhole) (arg10 : Memref sig .tc .vmem S3 .f32) (harg10 : arg10.IsWhole) (arg11 : Memref sig .tc .vmem S5000x2 .f32) (harg11 : arg11.IsWhole)
    (x0 : Vec F S5000x128 .f32) (x1 : Vec F S5000x128 .bf16) (x2 : Vec F S5000x128 .bf16) (x3 : Vec F S5000x4 .f32) (x4 : Vec F S384x256 .f32) (x5 : Vec F S256 .f32) (x6 : Vec F S128x1 .f32) (x7 : Vec F S1 .f32) (x8 : Vec F S128x3 .f32) (x9 : Vec F S3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  change _ ⊢ wp _ _ _ (bodyAt1 t) _
  dsimp only [bodyAt1]
  simp only [before1_0, before1_1, before1_2, before1_3, before1_4, before1_5, before1_6, before1_7, before1_8, before1_9]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  iframe H0 H1 H2 H3 H4 H5 H6 H7 H8 H9
  isplitl [H10]; · iexists _; iexact H10
  iintro H
  iframe

end Cert.Kernel.Reg

end
-- ==== Proof.KRun.lean ====
import proofs.«406161_j39298950758847_3_alg».proof.Proof.KRegion0
import proofs.«406161_j39298950758847_3_alg».proof.Proof.KRegion1
import proofs.«406161_j39298950758847_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- A host stretch changes only the buffers it writes and a region only its output windows' arrays, so at such a buffer each boundary's contents are the previous boundary's. -/
theorem W5_kept (c : Dev nD) (b : Ref sig .tc) (h : b ∉ hostOps0_W ∧ b ∉ hostOps1_W ∧ b ∉ hostOps2_W
      ∧ (∀ w, Pipeline.arrRef spec0 w = b → (cfg0.win w).isOut = false) ∧ ∀ w, Pipeline.arrRef spec1 w = b → (cfg1.win w).isOut = false) :
    W5 m ρ c (Proc.devRef .tc b) = m ((c : Thread nD τ).loc b) := by
  obtain ⟨h0, h1, h2, hr0, hr1⟩ := h
  have e2 : W2 m ρ c (Proc.devRef .tc b) = W1 m ρ c (Proc.devRef .tc b) := by
    by_cases hw : ∃ w, Pipeline.arrRef spec0 w = b
    · obtain ⟨w, rfl⟩ := hw; exact W2_in m ρ c w (hr0 w rfl)
    · exact W2_of_ne m ρ c b fun w e => hw ⟨w, e⟩
  have e4 : W4 m ρ c (Proc.devRef .tc b) = W3 m ρ c (Proc.devRef .tc b) := by
    by_cases hw : ∃ w, Pipeline.arrRef spec1 w = b
    · obtain ⟨w, rfl⟩ := hw; exact W4_in m ρ c w (hr1 w rfl)
    · exact W4_of_ne m ρ c b fun w e => hw ⟨w, e⟩
  exact (W5_of m ρ c b h2).trans (e4.trans ((W3_of m ρ c b h1).trans (e2.trans (W1_of m ρ c b h0))))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W5 m ρ c) ∗ ∃ r, prngReg c r)

theorem last_exit (c : Dev nD) : iprop(StableHlo.held (c : Thread nD τ) (Pipeline.ucRefs τ sig) (W5 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    iframe
    iempintro
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    iframe
  hout c := by
    rw [Pipeline.ownSems0_none, show (pdats m ρ 1 c).Φ (Fin.last _) = Pipeline.ΦA spec1 c from rfl]; unfold Pipeline.ΦA
    iintro ⟨Hr, Hp⟩
    iframe
    iempintro
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) :=
  main_segs adm (pdats m ρ) () 𝒱₀ L lv _ _ _ (reg0 m ρ) (reg1 m ρ) rfl rfl rfl c

set_option backward.isDefEq.respectTransparency.types false in
/-- The program is five segments in a row (host stretch, kernel call, host stretch, kernel call, host stretch), each entered from the contents the one before leaves. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_exit m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (Finset.mem_filter.mpr ⟨StableHlo.devRef_mem_tcRefs b, hb⟩))

theorem kept : θ_run defs (onTc (τ := τ) (main (F := F))) ⟨m, fun _ => 0, ρ⟩ (fun r => ∀ (c : Dev nD) (b : Ref sig .tc),
      (¬ (Proc.devRef .tc b : DevRef τ sig).isScoped ∧ b ∉ hostOps0_W ∧ b ∉ hostOps1_W ∧ b ∉ hostOps2_W
        ∧ (∀ w, Pipeline.arrRef spec0 w = b → (cfg0.win w).isOut = false) ∧ ∀ w, Pipeline.arrRef spec1 w = b → (cfg1.win w).isOut = false) →
      r.2.mem ((c.tc : Thread nD τ).loc b) = m ((c.tc : Thread nD τ).loc b)) :=
  (θ_run defs _ _).mono (fun r h c b hb => (h c b hb.1).trans (W5_kept m ρ c b hb.2)) (run m ρ)

end Cert.Kernel.Reg

end
-- ==== Proof.KIRegion0.lean ====
import proofs.«406161_j39298950758847_3_alg».proof.Proof.Gen.KernelIdeal.Launch
import proofs.«406161_j39298950758847_3_alg».proof.Proof.Gen.KernelIdeal.Skeleton
import proofs.«406161_j39298950758847_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_S5000x128 : Rect S5000x128 := Rect.unit (s := S5000x128) ![0, 0] S5000x128.size inb_S5000x128_S5000x128_0_0
abbrev r0_S128x512 : Rect S128x512 := Rect.unit (s := S128x512) ![0, 0] S128x512.size inb_S128x512_S128x512_0_0
abbrev r0_S512 : Rect S512 := Rect.unit (s := S512) ![0] S512.size inb_S512_S512_0
abbrev r0_S128x2 : Rect S128x2 := Rect.unit (s := S128x2) ![0, 0] S128x2.size inb_S128x2_S128x2_0_0
abbrev r0_S2 : Rect S2 := Rect.unit (s := S2) ![0] S2.size inb_S2_S2_0
abbrev r0_S128x1 : Rect S128x1 := Rect.unit (s := S128x1) ![0, 0] S128x1.size inb_S128x1_S128x1_0_0
abbrev r0_S1 : Rect S1 := Rect.unit (s := S1) ![0] S1.size inb_S1_S1_0
abbrev r0_S128x3 : Rect S128x3 := Rect.unit (s := S128x3) ![0, 0] S128x3.size inb_S128x3_S128x3_0_0
abbrev r0_S3 : Rect S3 := Rect.unit (s := S3) ![0] S3.size inb_S3_S3_0
abbrev r0_S5000x10 : Rect S5000x10 := Rect.unit (s := S5000x10) ![0, 0] S5000x10.size inb_S5000x10_S5000x10_0_0

def out0_11 (x0 : Vec F S5000x128 .f32) (x1 : Vec F S128x512 .f32) (x2 : Vec F S512 .f32) (x3 : Vec F S128x2 .f32) (x4 : Vec F S2 .f32) (x5 : Vec F S128x2 .f32) (x6 : Vec F S2 .f32) (x7 : Vec F S128x1 .f32) (x8 : Vec F S1 .f32) (x9 : Vec F S128x3 .f32) (x10 : Vec F S3 .f32) : Vec F S5000x10 .f32 :=
  View.canon [⟨r0_S5000x10, k0_pay7 (k0_pay3 (View.ld x0 r0_S5000x128) (View.ld x1 r0_S128x512) (View.ld x2 r0_S512)) (k0_pay4 (View.ld x0 r0_S5000x128) (View.ld x1 r0_S128x512) (View.ld x2 r0_S512) (View.ld x3 r0_S128x2) (View.ld x4 r0_S2)) (k0_pay5 (View.ld x0 r0_S5000x128) (View.ld x1 r0_S128x512) (View.ld x2 r0_S512) (View.ld x5 r0_S128x2) (View.ld x6 r0_S2)) (k0_pay6 (View.ld x0 r0_S5000x128) (View.ld x1 r0_S128x512) (View.ld x2 r0_S512) (View.ld x7 r0_S128x1) (View.ld x8 r0_S1)) (View.ld x9 r0_S128x3) (View.ld x10 r0_S3)⟩]

def out0_12 (x0 : Vec F S5000x128 .f32) : Vec F S5000x128 .bf16 :=
  View.canon [⟨r0_S5000x128, k0_pay1 (View.ld x0 r0_S5000x128)⟩]

theorem cover0_11 (p0 : Vec F S5000x10 .f32) (y : S5000x10.Idx) :
    ∃ pc ∈ ([⟨r0_S5000x10, p0⟩] : List (View.Piece (Elt F) S5000x10 .f32)), y ∈ pc.1.set :=
  View.cover_of_tiled [⟨r0_S5000x10, p0⟩] S5000x10.size (by rfl) y

theorem cover0_12 (p0 : Vec F S5000x128 .bf16) (y : S5000x128.Idx) :
    ∃ pc ∈ ([⟨r0_S5000x128, p0⟩] : List (View.Piece (Elt F) S5000x128 .bf16)), y ∈ pc.1.set :=
  View.cover_of_tiled [⟨r0_S5000x128, p0⟩] S5000x128.size (by rfl) y

set_option maxHeartbeats 1000000 in
/-- The body reads each input whole and stores each output whole, so what it leaves in an output is one function of the inputs' contents. -/
theorem sound_kernel0 (c : Dev nD) (E : Set ℕ) (i : grid0.Coords) (arg1 : Memref sig .tc .vmem S5000x128 .f32) (harg1 : arg1.IsWhole) (arg2 : Memref sig .tc .vmem S128x512 .f32) (harg2 : arg2.IsWhole) (arg3 : Memref sig .tc .vmem S512 .f32) (harg3 : arg3.IsWhole) (arg4 : Memref sig .tc .vmem S128x2 .f32) (harg4 : arg4.IsWhole) (arg5 : Memref sig .tc .vmem S2 .f32) (harg5 : arg5.IsWhole) (arg6 : Memref sig .tc .vmem S128x2 .f32) (harg6 : arg6.IsWhole) (arg7 : Memref sig .tc .vmem S2 .f32) (harg7 : arg7.IsWhole) (arg8 : Memref sig .tc .vmem S128x1 .f32) (harg8 : arg8.IsWhole) (arg9 : Memref sig .tc .vmem S1 .f32) (harg9 : arg9.IsWhole) (arg10 : Memref sig .tc .vmem S128x3 .f32) (harg10 : arg10.IsWhole) (arg11 : Memref sig .tc .vmem S3 .f32) (harg11 : arg11.IsWhole) (arg12 : Memref sig .tc .vmem S5000x10 .f32) (harg12 : arg12.IsWhole) (arg13 : Memref sig .tc .vmem S5000x128 .bf16) (harg13 : arg13.IsWhole)
    (x0 : Vec F S5000x128 .f32) (x1 : Vec F S128x512 .f32) (x2 : Vec F S512 .f32) (x3 : Vec F S128x2 .f32) (x4 : Vec F S2 .f32) (x5 : Vec F S128x2 .f32) (x6 : Vec F S2 .f32) (x7 : Vec F S128x1 .f32) (x8 : Vec F S1 .f32) (x9 : Vec F S128x3 .f32) (x10 : Vec F S3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out0_11 x0 x1 x2 x3 x4 x5 x6 x7 x8 x9 x10) ∗ owns (c : Thread nD τ) arg13 fullShare (out0_12 x0)) -∗ K ⟨⟩))
      ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12 arg13 harg13) K := by
  simp only [cc0__node_kernel_eq_skeleton]; unfold cc0__node_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  change _ ⊢ wp _ _ _ (bodyAt0 t) _
  dsimp only [bodyAt0]
  simp only [before0_0, before0_1, before0_2, before0_3, before0_4, before0_5, before0_6, before0_7, before0_8, before0_9, before0_10]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  iframe H0 H1 H2 H3 H4 H5 H6 H7 H8 H9 H10
  isplitl [H11]; · iexists _; iexact H11
  isplitl [H12]; · iexists _; iexact H12
  iintro H
  iframe

end Cert.KernelIdeal.Reg

end
-- ==== Proof.KIRegion1.lean ====
import proofs.«406161_j39298950758847_3_alg».proof.Proof.Gen.KernelIdeal.Launch
import proofs.«406161_j39298950758847_3_alg».proof.Proof.Gen.KernelIdeal.Skeleton
import proofs.«406161_j39298950758847_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0

abbrev r1_1 : Rect S384x256 := Rect.unit (s := S384x256) ![0, 0] S128x256.size inb_S384x256_S128x256_0_0
abbrev r1_2 : Rect S384x256 := Rect.unit (s := S384x256) ![128, 0] S128x256.size inb_S384x256_S128x256_128_0
abbrev r1_3 : Rect S384x256 := Rect.unit (s := S384x256) ![256, 0] S128x256.size inb_S384x256_S128x256_256_0

abbrev r1_4 : Rect S256 := Rect.unit (s := S256) ![0] S256.size inb_S256_S256_0
abbrev r1_5 : Rect S128x1 := Rect.unit (s := S128x1) ![0, 0] S128x1.size inb_S128x1_S128x1_0_0
abbrev r1_6 : Rect S1 := Rect.unit (s := S1) ![0] S1.size inb_S1_S1_0
abbrev r1_7 : Rect S128x3 := Rect.unit (s := S128x3) ![0, 0] S128x3.size inb_S128x3_S128x3_0_0
abbrev r1_8 : Rect S3 := Rect.unit (s := S3) ![0] S3.size inb_S3_S3_0
abbrev r1_9 : Rect S5000x4 := Rect.unit (s := S5000x4) ![0, 0] S5000x4.size inb_S5000x4_S5000x4_0_0
abbrev r1_10 : Rect S5000x2 := Rect.unit (s := S5000x2) ![0, 0] S5000x2.size inb_S5000x2_S5000x2_0_0

def out1_10 (x0 : Vec F S5000x128 .f32) (x1 : Vec F S5000x128 .bf16) (x2 : Vec F S5000x128 .bf16) (x3 : Vec F S5000x4 .f32) (x4 : Vec F S384x256 .f32) (x5 : Vec F S256 .f32) (x6 : Vec F S128x1 .f32) (x7 : Vec F S1 .f32) (x8 : Vec F S128x3 .f32) (x9 : Vec F S3 .f32) : Vec F S5000x2 .f32 :=
  View.canon [⟨r1_10, k1_pay1 (k1_pay3 (View.ld x0 r1_0) (View.ld x1 r1_0) (View.ld x2 r1_0) (View.ld x4 r1_1) (View.ld x4 r1_2) (View.ld x4 r1_3) (View.ld x5 r1_4)) (k1_pay4 (View.ld x0 r1_0) (View.ld x1 r1_0) (View.ld x2 r1_0) (View.ld x4 r1_1) (View.ld x4 r1_2) (View.ld x4 r1_3) (View.ld x5 r1_4) (View.ld x6 r1_5) (View.ld x7 r1_6)) (View.ld x8 r1_7) (View.ld x9 r1_8) (View.ld x3 r1_9)⟩]

theorem cover1_10 (p0 : Vec F S5000x2 .f32) (y : S5000x2.Idx) :
    ∃ pc ∈ ([⟨r1_10, p0⟩] : List (View.Piece (Elt F) S5000x2 .f32)), y ∈ pc.1.set :=
  View.cover_of_tiled [⟨r1_10, p0⟩] S5000x2.size (by rfl) y

set_option maxHeartbeats 1000000 in
/-- The body reads each input whole and stores each output whole, so what it leaves in an output is one function of the inputs' contents. -/
theorem sound_kernel1 (c : Dev nD) (E : Set ℕ) (i : grid1.Coords) (arg1 : Memref sig .tc .vmem S5000x128 .f32) (harg1 : arg1.IsWhole) (arg2 : Memref sig .tc .vmem S5000x128 .bf16) (harg2 : arg2.IsWhole) (arg3 : Memref sig .tc .vmem S5000x128 .bf16) (harg3 : arg3.IsWhole) (arg4 : Memref sig .tc .vmem S5000x4 .f32) (harg4 : arg4.IsWhole) (arg5 : Memref sig .tc .vmem S384x256 .f32) (harg5 : arg5.IsWhole) (arg6 : Memref sig .tc .vmem S256 .f32) (harg6 : arg6.IsWhole) (arg7 : Memref sig .tc .vmem S128x1 .f32) (harg7 : arg7.IsWhole) (arg8 : Memref sig .tc .vmem S1 .f32) (harg8 : arg8.IsWhole) (arg9 : Memref sig .tc .vmem S128x3 .f32) (harg9 : arg9.IsWhole) (arg10 : Memref sig .tc .vmem S3 .f32) (harg10 : arg10.IsWhole) (arg11 : Memref sig .tc .vmem S5000x2 .f32) (harg11 : arg11.IsWhole)
    (x0 : Vec F S5000x128 .f32) (x1 : Vec F S5000x128 .bf16) (x2 : Vec F S5000x128 .bf16) (x3 : Vec F S5000x4 .f32) (x4 : Vec F S384x256 .f32) (x5 : Vec F S256 .f32) (x6 : Vec F S128x1 .f32) (x7 : Vec F S1 .f32) (x8 : Vec F S128x3 .f32) (x9 : Vec F S3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  change _ ⊢ wp _ _ _ (bodyAt1 t) _
  dsimp only [bodyAt1]
  simp only [before1_0, before1_1, before1_2, before1_3, before1_4, before1_5, before1_6, before1_7, before1_8, before1_9]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  iframe H0 H1 H2 H3 H4 H5 H6 H7 H8 H9
  isplitl [H10]; · iexists _; iexact H10
  iintro H
  iframe

end Cert.KernelIdeal.Reg

end
-- ==== Proof.KIRun.lean ====
import proofs.«406161_j39298950758847_3_alg».proof.Proof.KIRegion0
import proofs.«406161_j39298950758847_3_alg».proof.Proof.KIRegion1
import proofs.«406161_j39298950758847_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- A host stretch changes only the buffers it writes and a region only its output windows' arrays, so at such a buffer each boundary's contents are the previous boundary's. -/
theorem W5_kept (c : Dev nD) (b : Ref sig .tc) (h : b ∉ hostOps0_W ∧ b ∉ hostOps1_W ∧ b ∉ hostOps2_W
      ∧ (∀ w, Pipeline.arrRef spec0 w = b → (cfg0.win w).isOut = false) ∧ ∀ w, Pipeline.arrRef spec1 w = b → (cfg1.win w).isOut = false) :
    W5 m ρ c (Proc.devRef .tc b) = m ((c : Thread nD τ).loc b) := by
  obtain ⟨h0, h1, h2, hr0, hr1⟩ := h
  have e2 : W2 m ρ c (Proc.devRef .tc b) = W1 m ρ c (Proc.devRef .tc b) := by
    by_cases hw : ∃ w, Pipeline.arrRef spec0 w = b
    · obtain ⟨w, rfl⟩ := hw; exact W2_in m ρ c w (hr0 w rfl)
    · exact W2_of_ne m ρ c b fun w e => hw ⟨w, e⟩
  have e4 : W4 m ρ c (Proc.devRef .tc b) = W3 m ρ c (Proc.devRef .tc b) := by
    by_cases hw : ∃ w, Pipeline.arrRef spec1 w = b
    · obtain ⟨w, rfl⟩ := hw; exact W4_in m ρ c w (hr1 w rfl)
    · exact W4_of_ne m ρ c b fun w e => hw ⟨w, e⟩
  exact (W5_of m ρ c b h2).trans (e4.trans ((W3_of m ρ c b h1).trans (e2.trans (W1_of m ρ c b h0))))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W5 m ρ c) ∗ ∃ r, prngReg c r)

theorem last_exit (c : Dev nD) : iprop(StableHlo.held (c : Thread nD τ) (Pipeline.ucRefs τ sig) (W5 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    iframe
    iempintro
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    iframe
  hout c := by
    rw [Pipeline.ownSems0_none, show (pdats m ρ 1 c).Φ (Fin.last _) = Pipeline.ΦA spec1 c from rfl]; unfold Pipeline.ΦA
    iintro ⟨Hr, Hp⟩
    iframe
    iempintro
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) :=
  main_segs adm (pdats m ρ) () 𝒱₀ L lv _ _ _ (reg0 m ρ) (reg1 m ρ) rfl rfl rfl c

set_option backward.isDefEq.respectTransparency.types false in
/-- The program is five segments in a row (host stretch, kernel call, host stretch, kernel call, host stretch), each entered from the contents the one before leaves. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_exit m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (Finset.mem_filter.mpr ⟨StableHlo.devRef_mem_tcRefs b, hb⟩))

theorem kept : θ_run defs (onTc (τ := τ) (main (F := F))) ⟨m, fun _ => 0, ρ⟩ (fun r => ∀ (c : Dev nD) (b : Ref sig .tc),
      (¬ (Proc.devRef .tc b : DevRef τ sig).isScoped ∧ b ∉ hostOps0_W ∧ b ∉ hostOps1_W ∧ b ∉ hostOps2_W
        ∧ (∀ w, Pipeline.arrRef spec0 w = b → (cfg0.win w).isOut = false) ∧ ∀ w, Pipeline.arrRef spec1 w = b → (cfg1.win w).isOut = false) →
      r.2.mem ((c.tc : Thread nD τ).loc b) = m ((c.tc : Thread nD τ).loc b)) :=
  (θ_run defs _ _).mono (fun r h c b hb => (h c b hb.1).trans (W5_kept m ρ c b hb.2)) (run m ρ)

end Cert.KernelIdeal.Reg

end
-- ==== Proof.KIHost.lean ====
import proofs.«406161_j39298950758847_3_alg».proof.Proof.Gen.KernelIdeal
import proofs.«406161_j39298950758847_3_alg».proof.Proof.Spec
import Idealize.ShloMosaic.Lib.ValueIdx
import Idealize.ShloMosaic.Lib.Pipeline.Value

noncomputable section

namespace Cert.KernelIdeal.Val

open Idealize.ShloMosaic Idealize.ShloMosaic.ValueIdx

variable {α : Type}

-- Equal-shaped pieces side by side along axis `a`, read through indices `J c` that agree with `i` off that axis: piece `k` at `i`.
theorem cat_same {s t : Shape} (a : Fin t.rank) (hr : s.rank = t.rank) (us : List (s.Idx → α))
    (h : Shape.Concatenates ((us.map fun u => (⟨s, u⟩ : (s : Shape) × (s.Idx → α))).map (·.1)) t a)
    (i : s.Idx) (J : Fin (t.size a) → t.Idx) (hJa : ∀ c, J c a = c)
    (hJ : ∀ c (b : Fin s.rank), b.cast hr ≠ a → (i b).val = (J c (b.cast hr)).val)
    (k : Nat) (hk : k < us.length) (pre : Nat)
    (hpre : ((((us.map fun u => (⟨s, u⟩ : (s : Shape) × (s.Idx → α))).take k).map (·.1)).map fun s' =>
      if h : s'.rank = t.rank then s'.size (a.cast h.symm) else 0).sum = pre)
    (c : Fin (t.size a)) (hc : pre + (i (a.cast hr.symm)).val = c.val) :
    concatenate t a (us.map fun u => ⟨s, u⟩) h (J c) = us[k] i :=
  concatenate_apply_piece a _ h (J c) k (by rw [List.length_map]; exact hk) s us[k] (List.getElem_map _) hr pre hpre i (hJ c)
    (by rw [hJa]; exact hc)

theorem cat4_cols (u0 u1 u2 u3 : S128x128.Idx → α)
    (h : Shape.Concatenates [S128x128, S128x128, S128x128, S128x128] S128x512 1) (k j : Fin 128) :
    concatenate S128x512 1 [⟨S128x128, u0⟩, ⟨S128x128, u1⟩, ⟨S128x128, u2⟩, ⟨S128x128, u3⟩] h
        (ix2 k (⟨j.val, by omega⟩ : Fin 512)) = u0 (ix2 k j)
    ∧ concatenate S128x512 1 [⟨S128x128, u0⟩, ⟨S128x128, u1⟩, ⟨S128x128, u2⟩, ⟨S128x128, u3⟩] h
        (ix2 k (⟨128 + j.val, by omega⟩ : Fin 512)) = u1 (ix2 k j)
    ∧ concatenate S128x512 1 [⟨S128x128, u0⟩, ⟨S128x128, u1⟩, ⟨S128x128, u2⟩, ⟨S128x128, u3⟩] h
        (ix2 k (⟨256 + j.val, by omega⟩ : Fin 512)) = u2 (ix2 k j)
    ∧ concatenate S128x512 1 [⟨S128x128, u0⟩, ⟨S128x128, u1⟩, ⟨S128x128, u2⟩, ⟨S128x128, u3⟩] h
        (ix2 k (⟨384 + j.val, by omega⟩ : Fin 512)) = u3 (ix2 k j) := by
  have H := cat_same (s := S128x128) (t := S128x512) (1 : Fin 2) rfl [u0, u1, u2, u3] h (ix2 k j) (fun c => ix2 k c) (fun _ => rfl)
    fun _ b hb => match b with | ⟨0, _⟩ => rfl | ⟨1, _⟩ => absurd rfl hb
  exact ⟨H 0 (Nat.le_of_ble_eq_true rfl) 0 rfl _ (Nat.zero_add _), H 1 (Nat.le_of_ble_eq_true rfl) 128 rfl _ rfl, H 2 (Nat.le_of_ble_eq_true rfl) 256 rfl _ rfl, H 3 (Nat.le_of_ble_eq_true rfl) 384 rfl _ rfl⟩

theorem cat4_vec (u0 u1 u2 u3 : S128.Idx → α)
    (h : Shape.Concatenates [S128, S128, S128, S128] S512 0) (j : Fin 128) :
    concatenate S512 0 [⟨S128, u0⟩, ⟨S128, u1⟩, ⟨S128, u2⟩, ⟨S128, u3⟩] h
        (ix1 (⟨j.val, by omega⟩ : Fin 512)) = u0 (ix1 j)
    ∧ concatenate S512 0 [⟨S128, u0⟩, ⟨S128, u1⟩, ⟨S128, u2⟩, ⟨S128, u3⟩] h
        (ix1 (⟨128 + j.val, by omega⟩ : Fin 512)) = u1 (ix1 j)
    ∧ concatenate S512 0 [⟨S128, u0⟩, ⟨S128, u1⟩, ⟨S128, u2⟩, ⟨S128, u3⟩] h
        (ix1 (⟨256 + j.val, by omega⟩ : Fin 512)) = u2 (ix1 j)
    ∧ concatenate S512 0 [⟨S128, u0⟩, ⟨S128, u1⟩, ⟨S128, u2⟩, ⟨S128, u3⟩] h
        (ix1 (⟨384 + j.val, by omega⟩ : Fin 512)) = u3 (ix1 j) := by
  have H := cat_same (s := S128) (t := S512) (0 : Fin 1) rfl [u0, u1, u2, u3] h (ix1 j) (fun c => ix1 c) (fun _ => rfl)
    fun _ b hb => match b with | ⟨0, _⟩ => absurd rfl hb
  exact ⟨H 0 (Nat.le_of_ble_eq_true rfl) 0 rfl _ (Nat.zero_add _), H 1 (Nat.le_of_ble_eq_true rfl) 128 rfl _ rfl, H 2 (Nat.le_of_ble_eq_true rfl) 256 rfl _ rfl, H 3 (Nat.le_of_ble_eq_true rfl) 384 rfl _ rfl⟩

theorem cat2_cols384 (u0 u1 : S384x128.Idx → α)
    (h : Shape.Concatenates [S384x128, S384x128] S384x256 1) (k : Fin 384) (j : Fin 128) :
    concatenate S384x256 1 [⟨S384x128, u0⟩, ⟨S384x128, u1⟩] h (ix2 k (⟨j.val, by omega⟩ : Fin 256)) = u0 (ix2 k j)
    ∧ concatenate S384x256 1 [⟨S384x128, u0⟩, ⟨S384x128, u1⟩] h (ix2 k (⟨128 + j.val, by omega⟩ : Fin 256)) = u1 (ix2 k j) := by
  have H := cat_same (s := S384x128) (t := S384x256) (1 : Fin 2) rfl [u0, u1] h (ix2 k j) (fun c => ix2 k c) (fun _ => rfl)
    fun _ b hb => match b with | ⟨0, _⟩ => rfl | ⟨1, _⟩ => absurd rfl hb
  exact ⟨H 0 (Nat.le_of_ble_eq_true rfl) 0 rfl _ (Nat.zero_add _), H 1 (Nat.le_of_ble_eq_true rfl) 128 rfl _ rfl⟩

theorem cat2_vec (u0 u1 : S128.Idx → α)
    (h : Shape.Concatenates [S128, S128] S256 0) (j : Fin 128) :
    concatenate S256 0 [⟨S128, u0⟩, ⟨S128, u1⟩] h (ix1 (⟨j.val, by omega⟩ : Fin 256)) = u0 (ix1 j)
    ∧ concatenate S256 0 [⟨S128, u0⟩, ⟨S128, u1⟩] h (ix1 (⟨128 + j.val, by omega⟩ : Fin 256)) = u1 (ix1 j) := by
  have H := cat_same (s := S128) (t := S256) (0 : Fin 1) rfl [u0, u1] h (ix1 j) (fun c => ix1 c) (fun _ => rfl)
    fun _ b hb => match b with | ⟨0, _⟩ => absurd rfl hb
  exact ⟨H 0 (Nat.le_of_ble_eq_true rfl) 0 rfl _ (Nat.zero_add _), H 1 (Nat.le_of_ble_eq_true rfl) 128 rfl _ rfl⟩

theorem cat2_cols4 (u0 u1 : S50000x2.Idx → α)
    (h : Shape.Concatenates [S50000x2, S50000x2] S50000x4 1) (n : Fin 50000) (i : Fin 2) :
    concatenate S50000x4 1 [⟨S50000x2, u0⟩, ⟨S50000x2, u1⟩] h (ix2 n (⟨i.val, by omega⟩ : Fin 4)) = u0 (ix2 n i)
    ∧ concatenate S50000x4 1 [⟨S50000x2, u0⟩, ⟨S50000x2, u1⟩] h (ix2 n (⟨2 + i.val, by omega⟩ : Fin 4)) = u1 (ix2 n i) := by
  have H := cat_same (s := S50000x2) (t := S50000x4) (1 : Fin 2) rfl [u0, u1] h (ix2 n i) (fun c => ix2 n c) (fun _ => rfl)
    fun _ b hb => match b with | ⟨0, _⟩ => rfl | ⟨1, _⟩ => absurd rfl hb
  exact ⟨H 0 (Nat.le_of_ble_eq_true rfl) 0 rfl _ (Nat.zero_add _), H 1 (Nat.le_of_ble_eq_true rfl) 2 rfl _ rfl⟩

theorem slice_cols (o : Nat) (ho : o + 2 ≤ 10) (a : S50000x10.Idx → α) (h : S50000x10.Slices ![0, o] S50000x2)
    (n : Fin 50000) (i : Fin 2) :
    extractStridedSlice S50000x2 ![0, o] a h (ix2 n i) = a (ix2 n (⟨o + i.val, by omega⟩ : Fin 10)) := by
  refine extractStridedSlice_apply _ a h _ _ fun b => ?_
  match b with
  | ⟨0, _⟩ => exact (Nat.zero_add _).symm
  | ⟨1, _⟩ => rfl

theorem bcast_unit (x : S50000x2.Idx → α) (h : S50000x2.BroadcastsInDim S50000x2x1 (![0, 1] : Fin 2 → Fin S50000x2x1.rank))
    (n : Fin 50000) (i : Fin 2) (z : Fin 1) :
    broadcastInDim S50000x2x1 ![0, 1] h x (ix3 n i z) = x (ix2 n i) := by
  refine broadcastInDim_apply _ h x _ _ fun b => ?_
  match b with
  | ⟨0, _⟩ => rfl
  | ⟨1, _⟩ => rfl

theorem gather128_apply (x : S50000x128.Idx → α) (idx : IVec S500000x1 32) (e : Fin 500000) (k : Fin 128) :
    Host.gather gather_S50000x128_S500000x1_S500000x128_1_0_n_n_0_1_1128 x idx (ix2 e k)
      = x (ix2 (Cert.Spec.rowOf idx e) k) :=
  Cert.Spec.gather_rows_apply (N := 50000) (R := 500000) (C := 128) (by omega)
    gather_S50000x128_S500000x1_S500000x128_1_0_n_n_0_1_1128.wf x idx e k

theorem gather4_apply (x : S50000x4.Idx → α) (idx : IVec S500000x1 32) (e : Fin 500000) (k : Fin 4) :
    Host.gather gather_S50000x4_S500000x1_S500000x4_1_0_n_n_0_1_14 x idx (ix2 e k)
      = x (ix2 (Cert.Spec.rowOf idx e) k) :=
  Cert.Spec.gather_rows_apply (N := 50000) (R := 500000) (C := 4) (by omega)
    gather_S50000x4_S500000x1_S500000x4_1_0_n_n_0_1_14.wf x idx e k

end Cert.KernelIdeal.Val

end
-- ==== Proof.KIVal0.lean ====
import proofs.«406161_j39298950758847_3_alg».proof.Proof.KIRegion0
import proofs.«406161_j39298950758847_3_alg».proof.Proof.Spec
import Idealize.ShloMosaic.Lib.StackMember
import Idealize.ShloMosaic.Lib.ValueLayout

noncomputable section

open scoped BigOperators

namespace Cert.KernelIdeal.Val

open Cert.KernelIdeal Cert.KernelIdeal.Gen
open Idealize.ShloMosaic Idealize.ShloMosaic.ValueIdx Idealize.ShloMosaic.TcCoe Idealize.SL.Sem
open Idealize.ShloMosaic.Pipeline (Dat)

theorem matmul_plain_apply {m k n : Nat} {φ₁ φ₂ : FTy} (A : FVec Ideal ⟨2, ![m, k]⟩ φ₁) (B : FVec Ideal ⟨2, ![k, n]⟩ φ₂)
    (a : Fin m) (b : Fin n) :
    matmul (DotDims.plain m k n) none A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply none A B a b

theorem bias_apply {a b : Nat} (v : FVec Ideal ⟨1, ![b]⟩ .f32) (h : (⟨1, ![b]⟩ : Shape).ShapeCasts ⟨2, ![1, b]⟩)
    (h' : (⟨2, ![1, b]⟩ : Shape).Broadcasts ⟨2, ![a, b]⟩) (r : Fin a) (c : Fin b) :
    broadcastTo ⟨2, ![a, b]⟩ (shapeCast ⟨2, ![1, b]⟩ v h) h' (ix2 r c) = v (ix1 c) :=
  (broadcastTo_1b_ab_apply _ h' r c).trans (shapeCast_a_1a_apply v h 0 c)

theorem logistic_apply {s : Shape} {φ : FTy} (a : FVec Ideal s φ) (i : s.Idx) : logistic a i = Ideal.logistic (a i) := rfl

def pre (x0 : Vec Ideal S5000x128 .f32) (x1 : Vec Ideal S128x512 .f32) (x2 : Vec Ideal S512 .f32) (r : Fin 5000) (c : Fin 512) : EReal :=
  (∑ k : Fin 128, x0 (ix2 r k) * x1 (ix2 k c)) + x2 (ix1 c)

theorem hidden_apply (x0 : Vec Ideal S5000x128 .f32) (x1 : Vec Ideal S128x512 .f32) (x2 : Vec Ideal S512 .f32) (r : Fin 5000) (c : Fin 512) :
    k0_pay2 x0 x1 x2 (ix2 r c) = Cert.Spec.silu (pre x0 x1 x2 r c) := by
  unfold k0_pay2 k0_pay1
  simp only [shapeCast_self, truncf_apply, mulf_apply, addf_apply, logistic_apply, bias_apply]
  erw [matmul_plain_apply]
  rfl

def head (x0 : Vec Ideal S5000x128 .f32) (x1 : Vec Ideal S128x512 .f32) (x2 : Vec Ideal S512 .f32) (col : Fin 128 → Fin 512) {O : Nat}
    (W2 : Cert.Spec.Arr2 128 O) (b2 : Cert.Spec.Arr1 O) (r : Fin 5000) (o : Fin O) : EReal :=
  (∑ j : Fin 128, Cert.Spec.silu (pre x0 x1 x2 r (col j)) * W2 (ix2 j o)) + b2 (ix1 o)

-- 128 hidden columns from column o on, through a second layer, are the head over those columns.
theorem head_apply {O : Nat} (o : Nat) (x0 : Vec Ideal S5000x128 .f32) (x1 : Vec Ideal S128x512 .f32) (x2 : Vec Ideal S512 .f32)
    (hs : S5000x512.Slices ![0, o] S5000x128) (W : Cert.Spec.Arr2 128 O) (b : Cert.Spec.Arr1 O)
    (hc : (⟨1, ![O]⟩ : Shape).ShapeCasts ⟨2, ![1, O]⟩) (hb : (⟨2, ![1, O]⟩ : Shape).Broadcasts ⟨2, ![5000, O]⟩)
    (col : Fin 128 → Fin 512) (hcol : ∀ j, (col j).val = o + j.val) (r : Fin 5000) (q : Fin O) :
    addf (matmul (DotDims.plain 5000 128 O) none (extractStridedSlice S5000x128 ![0, o] (k0_pay2 x0 x1 x2) hs)
        (truncf .bf16 (W : FVec Ideal ⟨2, ![128, O]⟩ .f32) bitsLt_bf16_f32) (constant (F := Ideal) ⟨2, ![5000, O]⟩ .f32 0x00000000#32))
      (broadcastTo ⟨2, ![5000, O]⟩ (shapeCast ⟨2, ![1, O]⟩ (b : FVec Ideal ⟨1, ![O]⟩ .f32) hc) hb) (ix2 r q)
      = head x0 x1 x2 col W b r q := by
  unfold head
  rw [addf_apply, bias_apply b hc hb r q]
  refine congrArg (· + b (ix1 q)) ((matmul_plain_apply _ _ r q).trans (Finset.sum_congr rfl fun j _ => ?_))
  exact congrArg (· * W (ix2 j q)) ((slice2_axis1_apply o (k0_pay2 x0 x1 x2) hs r j (col j) (hcol j)).trans (hidden_apply x0 x1 x2 r _))

theorem pay3_apply (x0 : Vec Ideal S5000x128 .f32) (x1 : Vec Ideal S128x512 .f32) (x2 : Vec Ideal S512 .f32) (r : Fin 5000) (j : Fin 128) :
    k0_pay3 x0 x1 x2 (ix2 r j) = Cert.Spec.silu (pre x0 x1 x2 r ⟨384 + j.val, by omega⟩) := by
  unfold k0_pay3
  exact (slice2_axis1_apply 384 (k0_pay2 x0 x1 x2) slices_S5000x512_o0_384_S5000x128 r j ⟨384 + j.val, by omega⟩ rfl).trans (hidden_apply x0 x1 x2 r _)

def cols10 (dE dS : Fin 2 → EReal) (l : EReal) (m : Fin 3 → EReal) : Fin 10 → EReal
  | ⟨0, _⟩ => dE 0
  | ⟨1, _⟩ => dE 1
  | ⟨2, _⟩ => dS 0
  | ⟨3, _⟩ => dS 1
  | ⟨4, _⟩ => Cert.Spec.Lv0 l (dE 1) + Cert.Spec.Mw0 (m 0) (m 1) (dS 0) (dS 1)
  | ⟨5, _⟩ => Cert.Spec.Lv1 l (dE 0) + Cert.Spec.Mw1 (m 0) (m 1) (m 2) (dS 0) (dS 1)
  | ⟨6, _⟩ => Cert.Spec.Mw0 (m 0) (m 1) (dE 0) (dE 1)
  | ⟨7, _⟩ => Cert.Spec.Mw1 (m 0) (m 1) (m 2) (dE 0) (dE 1)
  | ⟨8, _⟩ => Cert.Spec.Lv0 l (dS 1)
  | ⟨9, _⟩ => Cert.Spec.Lv1 l (dS 0)

def pick10 (p q : FVec Ideal S5000x2 .f32) (a b c d e f : FVec Ideal S5000x1 .f32) (r : Fin 5000) : Fin 10 → EReal
  | ⟨0, _⟩ => p (ix2 r 0)
  | ⟨1, _⟩ => p (ix2 r 1)
  | ⟨2, _⟩ => q (ix2 r 0)
  | ⟨3, _⟩ => q (ix2 r 1)
  | ⟨4, _⟩ => a (ix2 r 0)
  | ⟨5, _⟩ => b (ix2 r 0)
  | ⟨6, _⟩ => c (ix2 r 0)
  | ⟨7, _⟩ => d (ix2 r 0)
  | ⟨8, _⟩ => e (ix2 r 0)
  | ⟨9, _⟩ => f (ix2 r 0)

theorem concat10_apply (p q : FVec Ideal S5000x2 .f32) (a b c d e f : FVec Ideal S5000x1 .f32) (r : Fin 5000) (j : Fin 10) :
    concatenate S5000x10 1 [⟨S5000x2, p⟩, ⟨S5000x2, q⟩, ⟨S5000x1, a⟩, ⟨S5000x1, b⟩, ⟨S5000x1, c⟩, ⟨S5000x1, d⟩, ⟨S5000x1, e⟩, ⟨S5000x1, f⟩]
        concatenates_S5000x2_S5000x2_S5000x1_S5000x1_S5000x1_S5000x1_S5000x1_S5000x1_S5000x10_d1 (ix2 r j)
      = pick10 p q a b c d e f r j := by
  unfold concatenate
  match j with
  | ⟨0, _⟩ | ⟨1, _⟩ => exact congrArg p (Shape.idx_ext₂ rfl rfl)
  | ⟨2, _⟩ | ⟨3, _⟩ => exact congrArg q (Shape.idx_ext₂ rfl rfl)
  | ⟨4, _⟩ | ⟨5, _⟩ | ⟨6, _⟩ | ⟨7, _⟩ | ⟨8, _⟩ | ⟨9, _⟩ => exact congrArg _ (Shape.idx_ext₂ rfl rfl)

theorem zero_word : Scalar.ofBits (F := Ideal) .f32 0x00000000#32 = (0 : Ideal .f32) := Ideal.ofBits_zero_f32

theorem pay7_apply (v17 : FVec Ideal S5000x128 .bf16) (v24 v31 : FVec Ideal S5000x2 .f32) (v38 : FVec Ideal S5000x1 .f32)
    (x9 : Vec Ideal S128x3 .f32) (x10 : Vec Ideal S3 .f32) (r : Fin 5000) (j : Fin 10) :
    k0_pay7 v17 v24 v31 v38 x9 x10 (ix2 r j)
      = cols10 (fun o => v24 (ix2 r o)) (fun o => v31 (ix2 r o)) (v38 (ix2 r 0))
          (fun o => (∑ k : Fin 128, v17 (ix2 r k) * x9 (ix2 k o)) + x10 (ix1 o)) j := by
  unfold k0_pay7
  refine (concat10_apply _ _ _ _ _ _ _ _ r j).trans ?_
  generalize hv : addf (matmul dot_S5000x128_S128x3_S5000x3_1_0_0_1_n_n none v17 (truncf .bf16 x9 bitsLt_bf16_f32) (constant (F := Ideal) S5000x3 .f32 0x00000000#32))
      (broadcastTo S5000x3 (shapeCast S1x3 x10 shapeCasts_S3_S1x3) broadcasts_S1x3_S5000x3) = v45
  have hm : ∀ o : Fin 3, v45 (ix2 r o) = (∑ k : Fin 128, v17 (ix2 r k) * x9 (ix2 k o)) + x10 (ix1 o) := fun o =>
    hv ▸ congrArg₂ (· + ·) (matmul_plain_apply v17 (truncf .bf16 x9 bitsLt_bf16_f32) r o) (bias_apply x10 shapeCasts_S3_S1x3 broadcasts_S1x3_S5000x3 r o)
  have hs : ∀ (n o : Nat) (X : FVec Ideal ⟨2, ![5000, n]⟩ .f32) (h) (k : Fin n) (hk : k.val = o),
      extractStridedSlice S5000x1 ![0, o] X h (ix2 r 0) = X (ix2 r k) := fun n o X h k hk => slice2_axis1_apply o X h r 0 k hk
  match j with
  | ⟨0, _⟩ | ⟨1, _⟩ | ⟨2, _⟩ | ⟨3, _⟩ => rfl
  | ⟨4, _⟩ | ⟨5, _⟩ | ⟨6, _⟩ | ⟨7, _⟩ | ⟨8, _⟩ | ⟨9, _⟩ =>
    simp only [pick10, cols10, Cert.Spec.Lv0, Cert.Spec.Lv1, Cert.Spec.Mw0, Cert.Spec.Mw1, addf_apply, mulf_apply, subf_apply, broadcast_apply, zero_word,
      hs 3 0 _ _ 0 rfl, hs 3 1 _ _ 1 rfl, hs 3 2 _ _ 2 rfl, hs 2 0 _ _ 0 rfl, hs 2 1 _ _ 1 rfl, hm]

theorem head_eq_mlp (P : Cert.Spec.NodeP) (n : Fin 50000) (r : Fin 5000)
    (x0 : Vec Ideal S5000x128 .f32) (x1 : Vec Ideal S128x512 .f32) (x2 : Vec Ideal S512 .f32)
    (hrow : ∀ k : Fin 128, x0 (ix2 r k) = P.x (ix2 n k))
    (col : Fin 128 → Fin 512) (W1 : Cert.Spec.Arr2 128 128) (b1 : Cert.Spec.Arr1 128)
    (hW : ∀ k j : Fin 128, x1 (ix2 k (col j)) = W1 (ix2 k j)) (hb : ∀ j : Fin 128, x2 (ix1 (col j)) = b1 (ix1 j))
    {O : Nat} (W2 : Cert.Spec.Arr2 128 O) (b2 : Cert.Spec.Arr1 O) (o : Fin O) :
    head x0 x1 x2 col W2 b2 r o = Cert.Spec.mlp P.xr W1 b1 W2 b2 n o := by
  unfold head Cert.Spec.mlp Cert.Spec.out
  refine congrArg (· + b2 (ix1 o)) (Finset.sum_congr rfl fun j _ => ?_)
  refine congrArg (fun z => Cert.Spec.silu z * W2 (ix2 j o)) ?_
  unfold pre Cert.Spec.lin Cert.Spec.NodeP.xr
  exact congrArg₂ (· + ·) (Finset.sum_congr rfl fun k _ => congrArg₂ (· * ·) (hrow k) (hW k j)) (hb j)

theorem node10_eq_cols10 (P : Cert.Spec.NodeP) (n : Fin 50000) :
    P.node10 n = cols10 (P.dE n) (P.dS n) (P.ln n) (P.mn n) := by
  funext j
  match j with
  | ⟨0, _⟩ | ⟨1, _⟩ | ⟨2, _⟩ | ⟨3, _⟩ | ⟨4, _⟩ | ⟨5, _⟩ | ⟨6, _⟩ | ⟨7, _⟩ | ⟨8, _⟩ | ⟨9, _⟩ => rfl

-- A block row holding node n's features, against fused weights holding the four first layers side by side, gives n's ten columns.
theorem node_row (P : Cert.Spec.NodeP) (n : Fin 50000) (r : Fin 5000)
    (x0 : Vec Ideal S5000x128 .f32) (x1 : Vec Ideal S128x512 .f32) (x2 : Vec Ideal S512 .f32)
    (hrow : ∀ k : Fin 128, x0 (ix2 r k) = P.x (ix2 n k))
    (hW : ∀ (k j : Fin 128), x1 (ix2 k ⟨j.val, by omega⟩) = P.EgW1 (ix2 k j) ∧ x1 (ix2 k ⟨128 + j.val, by omega⟩) = P.SgW1 (ix2 k j)
        ∧ x1 (ix2 k ⟨256 + j.val, by omega⟩) = P.LnW1 (ix2 k j) ∧ x1 (ix2 k ⟨384 + j.val, by omega⟩) = P.MnW1 (ix2 k j))
    (hb : ∀ j : Fin 128, x2 (ix1 ⟨j.val, by omega⟩) = P.Egb1 (ix1 j) ∧ x2 (ix1 ⟨128 + j.val, by omega⟩) = P.Sgb1 (ix1 j)
        ∧ x2 (ix1 ⟨256 + j.val, by omega⟩) = P.Lnb1 (ix1 j) ∧ x2 (ix1 ⟨384 + j.val, by omega⟩) = P.Mnb1 (ix1 j))
    (j : Fin 10) :
    k0_pay7 (k0_pay3 x0 x1 x2) (k0_pay4 x0 x1 x2 P.EgW2 P.Egb2) (k0_pay5 x0 x1 x2 P.SgW2 P.Sgb2) (k0_pay6 x0 x1 x2 P.LnW2 P.Lnb2)
        P.MnW2 P.Mnb2 (ix2 r j) = P.node10 n j := by
  refine (pay7_apply _ _ _ _ _ _ r j).trans ?_
  rw [node10_eq_cols10]
  have hE : (fun o => k0_pay4 x0 x1 x2 P.EgW2 P.Egb2 (ix2 r o)) = P.dE n := funext fun o =>
    (head_apply 0 x0 x1 x2 _ _ _ _ _ (fun j => ⟨j.val, by omega⟩) (fun j => (Nat.zero_add _).symm) r o).trans
      (head_eq_mlp P n r x0 x1 x2 hrow _ P.EgW1 P.Egb1 (fun k j => (hW k j).1) (fun j => (hb j).1) _ _ o)
  have hS : (fun o => k0_pay5 x0 x1 x2 P.SgW2 P.Sgb2 (ix2 r o)) = P.dS n := funext fun o =>
    (head_apply 128 x0 x1 x2 _ _ _ _ _ (fun j => ⟨128 + j.val, by omega⟩) (fun j => rfl) r o).trans
      (head_eq_mlp P n r x0 x1 x2 hrow _ P.SgW1 P.Sgb1 (fun k j => (hW k j).2.1) (fun j => (hb j).2.1) _ _ o)
  have hL : k0_pay6 x0 x1 x2 P.LnW2 P.Lnb2 (ix2 r 0) = P.ln n :=
    (head_apply 256 x0 x1 x2 _ _ _ _ _ (fun j => ⟨256 + j.val, by omega⟩) (fun j => rfl) r 0).trans
      (head_eq_mlp P n r x0 x1 x2 hrow _ P.LnW1 P.Lnb1 (fun k j => (hW k j).2.2.1) (fun j => (hb j).2.2.1) _ _ 0)
  have hM : (fun o => (∑ k : Fin 128, k0_pay3 x0 x1 x2 (ix2 r k) * P.MnW2 (ix2 k o)) + P.Mnb2 (ix1 o)) = P.mn n := funext fun o =>
    (congrArg (· + P.Mnb2 (ix1 o)) (Finset.sum_congr rfl fun k _ => congrArg (· * P.MnW2 (ix2 k o)) (pay3_apply x0 x1 x2 r k))).trans
      (head_eq_mlp P n r x0 x1 x2 hrow (fun j => ⟨384 + j.val, by omega⟩) P.MnW1 P.Mnb1 (fun k j => (hW k j).2.2.2) (fun j => (hb j).2.2.2) P.MnW2 P.Mnb2 o)
  rw [hE, hS, hL, hM]

theorem hz2 : (![0, 0] : Fin 2 → Nat) = fun _ => 0 := funext fun a => by fin_cases a <;> rfl
theorem hz1 : (![0] : Fin 1 → Nat) = fun _ => 0 := funext fun a => by fin_cases a <;> rfl

theorem off_row : ∀ (t : Fin cfg0.N) (w : Fin cfg0.W), w.val = 0 ∨ 10 < w.val → ∀ a,
    (cfg0.win w).index t a * (cfg0.win w).size a = if a.val = 0 then t.val * 5000 else 0 :=
  (by decide +kernel : ∀ t : Fin grid0.N, _)

theorem idx_whole : ∀ (t : Fin cfg0.N) (w : Fin cfg0.W), 0 < w.val ∧ w.val < 11 → ∀ a, (cfg0.win w).index t a = 0 :=
  (by decide +kernel : ∀ t : Fin grid0.N, _)

theorem emb_row (t : Fin cfg0.N) (w : Fin cfg0.W) (hw : w.val = 0 ∨ 10 < w.val) (y) (a) :
    (((cfg0.win w).rect t).emb y a : Nat) = y a + if a.val = 0 then t.val * 5000 else 0 :=
  ((cfg0.win w).rect_emb_val t y a).trans ((Nat.add_comm _ _).trans (congrArg ((y a : Nat) + ·) (off_row t w hw a)))

theorem emb_whole (t : Fin cfg0.N) (w : Fin cfg0.W) (hw : 0 < w.val ∧ w.val < 11) (y) (a) :
    (((cfg0.win w).rect t).emb y a : Nat) = y a :=
  (cfg0.win w).rect_emb_val_of_index_zero t a (idx_whole t w hw a) y

def nodeOf (t : Fin cfg0.N) (p : Fin 5000) : Fin 50000 :=
  ⟨p.val + t.val * 5000, by have := t.isLt; have hN : cfg0.N = 10 := N_0; omega⟩

variable (V : (c : Dev nD) → (b : Ref sig .tc) → Buf (Elt Ideal) ((c : Thread nD τ).loc b))

theorem blk1 (c : Dev nD) (t : Fin cfg0.N) : (Reg.iblk0 V c 1 t : Cert.Spec.Arr2 128 512) = V c main_v4 :=
  funext fun y => congrArg (V c main_v4) (funext fun a => Fin.ext (emb_whole t 1 (by decide) y a))
theorem blk2 (c : Dev nD) (t : Fin cfg0.N) : (Reg.iblk0 V c 2 t : Cert.Spec.Arr1 512) = V c main_v5 :=
  funext fun y => congrArg (V c main_v5) (funext fun a => Fin.ext (emb_whole t 2 (by decide) y a))
theorem blk3 (c : Dev nD) (t : Fin cfg0.N) : (Reg.iblk0 V c 3 t : Cert.Spec.Arr2 128 2) = V c main_arg5 :=
  funext fun y => congrArg (V c main_arg5) (funext fun a => Fin.ext (emb_whole t 3 (by decide) y a))
theorem blk4 (c : Dev nD) (t : Fin cfg0.N) : (Reg.iblk0 V c 4 t : Cert.Spec.Arr1 2) = V c main_arg6 :=
  funext fun y => congrArg (V c main_arg6) (funext fun a => Fin.ext (emb_whole t 4 (by decide) y a))
theorem blk5 (c : Dev nD) (t : Fin cfg0.N) : (Reg.iblk0 V c 5 t : Cert.Spec.Arr2 128 2) = V c main_arg9 :=
  funext fun y => congrArg (V c main_arg9) (funext fun a => Fin.ext (emb_whole t 5 (by decide) y a))
theorem blk6 (c : Dev nD) (t : Fin cfg0.N) : (Reg.iblk0 V c 6 t : Cert.Spec.Arr1 2) = V c main_arg10 :=
  funext fun y => congrArg (V c main_arg10) (funext fun a => Fin.ext (emb_whole t 6 (by decide) y a))
theorem blk7 (c : Dev nD) (t : Fin cfg0.N) : (Reg.iblk0 V c 7 t : Cert.Spec.Arr2 128 1) = V c main_arg13 :=
  funext fun y => congrArg (V c main_arg13) (funext fun a => Fin.ext (emb_whole t 7 (by decide) y a))
theorem blk8 (c : Dev nD) (t : Fin cfg0.N) : (Reg.iblk0 V c 8 t : Cert.Spec.Arr1 1) = V c main_arg14 :=
  funext fun y => congrArg (V c main_arg14) (funext fun a => Fin.ext (emb_whole t 8 (by decide) y a))
theorem blk9 (c : Dev nD) (t : Fin cfg0.N) : (Reg.iblk0 V c 9 t : Cert.Spec.Arr2 128 3) = V c main_arg17 :=
  funext fun y => congrArg (V c main_arg17) (funext fun a => Fin.ext (emb_whole t 9 (by decide) y a))
theorem blk10 (c : Dev nD) (t : Fin cfg0.N) : (Reg.iblk0 V c 10 t : Cert.Spec.Arr1 3) = V c main_arg18 :=
  funext fun y => congrArg (V c main_arg18) (funext fun a => Fin.ext (emb_whole t 10 (by decide) y a))

theorem blk0_row (c : Dev nD) (t : Fin cfg0.N) (p : Fin 5000) (k : Fin 128) :
    (Reg.iblk0 V c 0 t : Cert.Spec.Arr2 5000 128) (ix2 p k) = (V c main_arg0 : Cert.Spec.Arr2 50000 128) (ix2 (nodeOf t p) k) :=
  congrArg (V c main_arg0) (Shape.idx_ext₂ (emb_row t 0 (by decide) _ 0) (emb_row t 0 (by decide) _ 1))

theorem cover11 (i : S50000x10.Idx) : ∃ t : Fin cfg0.N, (cfg0.win 11).flush t = true ∧ i ∈ ((cfg0.win 11).blk t).view.set := by
  have hi0 : (i 0).val < 50000 := (i 0).isLt
  have hN : grid0.N = 10 := N_0
  obtain ⟨t, ht⟩ : ∃ t : Fin cfg0.N, t.val = (i 0).val / 5000 := ⟨⟨(i 0).val / 5000, by show _ < grid0.N; omega⟩, rfl⟩
  have e : ((cfg0.win 11).blk t).view.emb (ix2 ⟨(i 0).val % 5000, Nat.mod_lt _ (by decide)⟩ (i 1)) = i :=
    Shape.idx_ext₂ ((emb_row t 11 (by decide) _ 0).trans (by show (i 0).val % 5000 + t.val * 5000 = (i 0).val; omega))
      (emb_row t 11 (by decide) _ 1)
  exact ⟨t, flush0_11 t, e ▸ View.emb_mem_set _ _⟩

theorem cover12 (i : S50000x128.Idx) : ∃ t : Fin cfg0.N, (cfg0.win 12).flush t = true ∧ i ∈ ((cfg0.win 12).blk t).view.set := by
  have hi0 : (i 0).val < 50000 := (i 0).isLt
  have hN : grid0.N = 10 := N_0
  obtain ⟨t, ht⟩ : ∃ t : Fin cfg0.N, t.val = (i 0).val / 5000 := ⟨⟨(i 0).val / 5000, by show _ < grid0.N; omega⟩, rfl⟩
  have e : ((cfg0.win 12).blk t).view.emb (ix2 ⟨(i 0).val % 5000, Nat.mod_lt _ (by decide)⟩ (i 1)) = i :=
    Shape.idx_ext₂ ((emb_row t 12 (by decide) _ 0).trans (by show (i 0).val % 5000 + t.val * 5000 = (i 0).val; omega))
      (emb_row t 12 (by decide) _ 1)
  exact ⟨t, flush0_12 t, e ▸ View.emb_mem_set _ _⟩

theorem arr11 (c : Dev nD) (P : Cert.Spec.NodeP)
    (hx : (V c main_arg0 : Cert.Spec.Arr2 50000 128) = P.x)
    (hW : ∀ (k j : Fin 128), (V c main_v4 : Cert.Spec.Arr2 128 512) (ix2 k ⟨j.val, by omega⟩) = P.EgW1 (ix2 k j) ∧ (V c main_v4 : Cert.Spec.Arr2 128 512) (ix2 k ⟨128 + j.val, by omega⟩) = P.SgW1 (ix2 k j) ∧ (V c main_v4 : Cert.Spec.Arr2 128 512) (ix2 k ⟨256 + j.val, by omega⟩) = P.LnW1 (ix2 k j) ∧ (V c main_v4 : Cert.Spec.Arr2 128 512) (ix2 k ⟨384 + j.val, by omega⟩) = P.MnW1 (ix2 k j))
    (hb : ∀ j : Fin 128, (V c main_v5 : Cert.Spec.Arr1 512) (ix1 ⟨j.val, by omega⟩) = P.Egb1 (ix1 j) ∧ (V c main_v5 : Cert.Spec.Arr1 512) (ix1 ⟨128 + j.val, by omega⟩) = P.Sgb1 (ix1 j) ∧ (V c main_v5 : Cert.Spec.Arr1 512) (ix1 ⟨256 + j.val, by omega⟩) = P.Lnb1 (ix1 j) ∧ (V c main_v5 : Cert.Spec.Arr1 512) (ix1 ⟨384 + j.val, by omega⟩) = P.Mnb1 (ix1 j))
    (h5 : (V c main_arg5 : Cert.Spec.Arr2 128 2) = P.EgW2) (h6 : (V c main_arg6 : Cert.Spec.Arr1 2) = P.Egb2) (h9 : (V c main_arg9 : Cert.Spec.Arr2 128 2) = P.SgW2) (h10 : (V c main_arg10 : Cert.Spec.Arr1 2) = P.Sgb2) (h13 : (V c main_arg13 : Cert.Spec.Arr2 128 1) = P.LnW2) (h14 : (V c main_arg14 : Cert.Spec.Arr1 1) = P.Lnb2) (h17 : (V c main_arg17 : Cert.Spec.Arr2 128 3) = P.MnW2) (h18 : (V c main_arg18 : Cert.Spec.Arr1 3) = P.Mnb2) :
    (Reg.dat0 (F := Ideal) V c).arrAt 11 cfg0.N = P.node10A :=
  (Reg.dat0 (F := Ideal) V c).arrAt_eq_of_cover 11 P.node10A (fun t _ => by
    show (cfg0.win 11).cut (grid0.coords t) ((Reg.dat0 V c).after 11 t) = _
    rw [Reg.after0_11]
    unfold Reg.out0_11
    rw [View.canon_unit_zero hz2]
    simp only [View.ld_unit_zero (S := S5000x128) hz2, View.ld_unit_zero (S := S128x512) hz2, View.ld_unit_zero (S := S512) hz1,
      View.ld_unit_zero (S := S128x2) hz2, View.ld_unit_zero (S := S2) hz1, View.ld_unit_zero (S := S128x1) hz2, View.ld_unit_zero (S := S1) hz1,
      View.ld_unit_zero (S := S128x3) hz2, View.ld_unit_zero (S := S3) hz1]
    rw [(blk3 V c t).trans h5, (blk4 V c t).trans h6,
      (blk5 V c t).trans h9, (blk6 V c t).trans h10,
      (blk7 V c t).trans h13, (blk8 V c t).trans h14,
      (blk9 V c t).trans h17, (blk10 V c t).trans h18,
      blk1 V c t, blk2 V c t]
    funext y
    obtain ⟨p, q, rfl⟩ : ∃ (p : Fin 5000) (q : Fin 10), y = ix2 p q := ⟨y 0, y 1, eq_ix2 (n0 := 5000) (n1 := 10) y⟩
    refine (node_row P (nodeOf t p) p (Reg.iblk0 V c 0 t) (V c main_v4) (V c main_v5)
      (fun k => (blk0_row V c t p k).trans (congrFun hx _)) hW hb q).trans ?_
    rw [View.read_apply]
    exact congrArg₂ P.node10 (Fin.ext (emb_row t 11 (by decide) (ix2 p q) 0).symm) (Fin.ext (emb_row t 11 (by decide) (ix2 p q) 1).symm)) cover11

theorem arr12 (c : Dev nD) (x : Cert.Spec.Arr2 50000 128) (hx : (V c main_arg0 : Cert.Spec.Arr2 50000 128) = x) :
    (Reg.dat0 (F := Ideal) V c).arrAt 12 cfg0.N = x :=
  (Reg.dat0 (F := Ideal) V c).arrAt_eq_of_cover 12 x (fun t _ => by
    show (cfg0.win 12).cut (grid0.coords t) ((Reg.dat0 V c).after 12 t) = _
    rw [Reg.after0_12]
    unfold Reg.out0_12
    rw [View.canon_unit_zero hz2]
    simp only [View.ld_unit_zero (S := S5000x128) hz2]
    funext y
    obtain ⟨p, q, rfl⟩ : ∃ (p : Fin 5000) (q : Fin 128), y = ix2 p q := ⟨y 0, y 1, eq_ix2 (n0 := 5000) (n1 := 128) y⟩
    refine ((blk0_row V c t p q).trans (congrFun hx _)).trans ?_
    rw [View.read_apply]
    exact congrArg x (Shape.idx_ext₂ (emb_row t 12 (by decide) (ix2 p q) 0).symm (emb_row t 12 (by decide) (ix2 p q) 1).symm)) cover12

end Cert.KernelIdeal.Val

end
-- ==== Proof.KIVal1.lean ====
import proofs.«406161_j39298950758847_3_alg».proof.Proof.KIRegion1
import proofs.«406161_j39298950758847_3_alg».proof.Proof.Spec
import Idealize.ShloMosaic.Lib.StackMember
import Idealize.ShloMosaic.Lib.Pipeline.Value
import Idealize.ShloMosaic.Lib.ValueLayout

noncomputable section

open scoped BigOperators

namespace Cert.KernelIdeal.Val

open Cert.KernelIdeal Cert.KernelIdeal.Gen
open Idealize.ShloMosaic Idealize.ShloMosaic.ValueIdx Idealize.ShloMosaic.TcCoe
open Idealize.ShloMosaic.Pipeline (Dat)

namespace Edge

theorem matmul_plain_apply {m k n : Nat} {φ₁ φ₂ : FTy} (A : FVec Ideal ⟨2, ![m, k]⟩ φ₁) (B : FVec Ideal ⟨2, ![k, n]⟩ φ₂)
    (a : Fin m) (b : Fin n) :
    matmul (DotDims.plain m k n) none A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply none A B a b

theorem mm256_apply (A : FVec Ideal S5000x128 .bf16) (B : FVec Ideal S128x256 .bf16) (q : Fin 5000) (c : Fin 256) :
    matmul dot_S5000x128_S128x256_S5000x256_1_0_0_1_n_n none A B (constant (F := Ideal) S5000x256 .f32 0x00000000#32) (ix2 q c)
      = ∑ k : Fin 128, A (ix2 q k) * B (ix2 k c) := matmul_plain_apply A B q c
theorem mm1_apply (A : FVec Ideal S5000x128 .bf16) (B : FVec Ideal S128x1 .bf16) (q : Fin 5000) (c : Fin 1) :
    matmul dot_S5000x128_S128x1_S5000x1_1_0_0_1_n_n none A B (constant (F := Ideal) S5000x1 .f32 0x00000000#32) (ix2 q c)
      = ∑ k : Fin 128, A (ix2 q k) * B (ix2 k c) := matmul_plain_apply A B q c
theorem mm3_apply (A : FVec Ideal S5000x128 .bf16) (B : FVec Ideal S128x3 .bf16) (q : Fin 5000) (c : Fin 3) :
    matmul dot_S5000x128_S128x3_S5000x3_1_0_0_1_n_n none A B (constant (F := Ideal) S5000x3 .f32 0x00000000#32) (ix2 q c)
      = ∑ k : Fin 128, A (ix2 q k) * B (ix2 k c) := matmul_plain_apply A B q c

theorem logistic_apply {s : Shape} {φ : FTy} (a : FVec Ideal s φ) (i : s.Idx) : logistic a i = Ideal.logistic (a i) := rfl

section FirstLayer
variable (x0 : Vec Ideal S5000x128 .f32) (x1 x2 : Vec Ideal S5000x128 .bf16)
  (v6 v9 v12 : Vec Ideal S128x256 .f32) (v20 : Vec Ideal S256 .f32)

def fused (q : Fin 5000) (c : Fin 256) : EReal :=
  (((∑ k : Fin 128, x0 (ix2 q k) * v6 (ix2 k c)) + ∑ k : Fin 128, x1 (ix2 q k) * v9 (ix2 k c))
    + ∑ k : Fin 128, x2 (ix2 q k) * v12 (ix2 k c)) + v20 (ix1 c)

theorem hidden_apply (q : Fin 5000) (c : Fin 256) :
    k1_pay2 x0 x1 x2 v6 v9 v12 v20 (ix2 q c) = Cert.Spec.silu (fused x0 x1 x2 v6 v9 v12 v20 q c) := by
  unfold k1_pay2
  simp only [shapeCast_self]
  simp only [truncf_apply, mulf_apply, addf_apply, logistic_apply, mm256_apply, broadcastTo_1b_ab_apply, shapeCast_a_1a_apply]
  rfl

theorem colsLo_apply (X : FVec Ideal S5000x256 .bf16) (q : Fin 5000) (j : Fin 128) :
    extractStridedSlice S5000x128 ![0, 0] X slices_S5000x256_o0_0_S5000x128 (ix2 q j) = X (ix2 q ⟨j.val, by omega⟩) :=
  slice2_axis1_apply 0 X _ q j ⟨j.val, by omega⟩ (Nat.zero_add _).symm

theorem pay3_apply (q : Fin 5000) (j : Fin 128) :
    k1_pay3 x0 x1 x2 v6 v9 v12 v20 (ix2 q j) = k1_pay2 x0 x1 x2 v6 v9 v12 v20 (ix2 q ⟨128 + j.val, by omega⟩) := by
  unfold k1_pay3
  exact slice2_axis1_apply 128 _ _ q j ⟨128 + j.val, by omega⟩ rfl

theorem pay4_apply (v30 : Vec Ideal S128x1 .f32) (v33 : Vec Ideal S1 .f32) (q : Fin 5000) (u : Fin 1) :
    k1_pay4 x0 x1 x2 v6 v9 v12 v20 v30 v33 (ix2 q u)
      = (∑ j : Fin 128, k1_pay2 x0 x1 x2 v6 v9 v12 v20 (ix2 q ⟨j.val, by omega⟩) * v30 (ix2 j u)) + v33 (ix1 u) := by
  unfold k1_pay4
  simp only [addf_apply, mm1_apply, truncf_apply, colsLo_apply, broadcastTo_1b_ab_apply, shapeCast_a_1a_apply]

end FirstLayer

theorem cat2_apply0 (a b : FVec Ideal S5000x1 .f32) (q : Fin 5000) :
    concatenate S5000x2 1 [⟨S5000x1, a⟩, ⟨S5000x1, b⟩] concatenates_S5000x1_S5000x1_S5000x2_d1 (ix2 q (0 : Fin 2))
      = a (ix2 q (0 : Fin 1)) := by
  unfold concatenate
  exact congrArg a (Shape.idx_ext₂ rfl rfl)
theorem cat2_apply1 (a b : FVec Ideal S5000x1 .f32) (q : Fin 5000) :
    concatenate S5000x2 1 [⟨S5000x1, a⟩, ⟨S5000x1, b⟩] concatenates_S5000x1_S5000x1_S5000x2_d1 (ix2 q (1 : Fin 2))
      = b (ix2 q (0 : Fin 1)) := by
  unfold concatenate
  exact congrArg b (Shape.idx_ext₂ rfl rfl)

section Out
variable (v29 : FVec Ideal S5000x128 .bf16) (v36 : FVec Ideal S5000x1 .f32) (v37 : Vec Ideal S128x3 .f32) (v40 : Vec Ideal S3 .f32)
  (v44 : Vec Ideal S5000x4 .f32)

def mOut (q : Fin 5000) (o : Fin 3) : EReal := (∑ j : Fin 128, v29 (ix2 q j) * v37 (ix2 j o)) + v40 (ix1 o)

-- The two stored columns at row q, from l = v36, m = mOut and the gathered row c = v44: L·(c₀, c₁) + M·(c₂, c₃).
theorem pay1_apply (q : Fin 5000) :
    k1_pay1 v29 v36 v37 v40 v44 (ix2 q (0 : Fin 2))
      = Cert.Spec.Lv0 (v36 (ix2 q 0)) (v44 (ix2 q 1))
        + Cert.Spec.Mw0 (mOut v29 v37 v40 q 0) (mOut v29 v37 v40 q 1) (v44 (ix2 q 2)) (v44 (ix2 q 3))
    ∧ k1_pay1 v29 v36 v37 v40 v44 (ix2 q (1 : Fin 2))
      = Cert.Spec.Lv1 (v36 (ix2 q 0)) (v44 (ix2 q 0))
        + Cert.Spec.Mw1 (mOut v29 v37 v40 q 0) (mOut v29 v37 v40 q 1) (mOut v29 v37 v40 q 2) (v44 (ix2 q 2)) (v44 (ix2 q 3)) := by
  unfold k1_pay1
  simp only [shapeCast_self]
  rw [cat2_apply0, cat2_apply1]
  simp only [addf_apply, mulf_apply, subf_apply, broadcast_apply, truncf_apply, mm3_apply, broadcastTo_1b_ab_apply, shapeCast_a_1a_apply,
    slice2_axis1_apply 0 _ _ q (0 : Fin 1) (0 : Fin 4) rfl, slice2_axis1_apply 1 _ _ q (0 : Fin 1) (1 : Fin 4) rfl, slice2_axis1_apply 2 _ _ q (0 : Fin 1) (2 : Fin 4) rfl, slice2_axis1_apply 3 _ _ q (0 : Fin 1) (3 : Fin 4) rfl,
    slice2_axis1_apply 0 _ _ q (0 : Fin 1) (0 : Fin 3) rfl, slice2_axis1_apply 1 _ _ q (0 : Fin 1) (1 : Fin 3) rfl, slice2_axis1_apply 2 _ _ q (0 : Fin 1) (2 : Fin 3) rfl]
  rw [show (FloatOps.ofBits FTy.f32 0x00000000#32 : Ideal .f32) = 0 from Ideal.ofBits_zero_f32]
  exact ⟨rfl, rfl⟩

end Out

section EdgeRow
variable {P : Cert.Spec.NodeP} {Q : Cert.Spec.EdgeP} {s r : Fin 500000 → Fin 50000} {e : Fin 500000} {q : Fin 5000}
  {x0 : Vec Ideal S5000x128 .f32} {x1 x2 : Vec Ideal S5000x128 .bf16} {x3 : Vec Ideal S5000x4 .f32}
  {v6 v9 v12 : Vec Ideal S128x256 .f32} {v20 : Vec Ideal S256 .f32}
  {x6 : Vec Ideal S128x1 .f32} {x7 : Vec Ideal S1 .f32} {x8 : Vec Ideal S128x3 .f32} {x9 : Vec Ideal S3 .f32}

-- On 128 fused columns where the three slabs and the bias hold a head's first layer, the hidden layer through a second layer is that head at e.
theorem fused_head (W1 : Cert.Spec.Arr2 384 128) (b1 : Cert.Spec.Arr1 128) (c : Fin 128 → Fin 256)
    (h0 : ∀ k : Fin 128, x0 (ix2 q k) = Q.ea (ix2 e k))
    (h1 : ∀ k : Fin 128, x1 (ix2 q k) = P.x (ix2 (s e) k))
    (h2 : ∀ k : Fin 128, x2 (ix2 q k) = P.x (ix2 (r e) k))
    (hw6 : ∀ k j : Fin 128, v6 (ix2 k (c j)) = W1 (ix2 (⟨k.val, by omega⟩ : Fin 384) j))
    (hw9 : ∀ k j : Fin 128, v9 (ix2 k (c j)) = W1 (ix2 (⟨128 + k.val, by omega⟩ : Fin 384) j))
    (hw12 : ∀ k j : Fin 128, v12 (ix2 k (c j)) = W1 (ix2 (⟨256 + k.val, by omega⟩ : Fin 384) j))
    (hb : ∀ j : Fin 128, v20 (ix1 (c j)) = b1 (ix1 j)) {O : Nat} (W2 : Cert.Spec.Arr2 128 O) (b2 : Cert.Spec.Arr1 O) (o : Fin O) :
    (∑ j : Fin 128, k1_pay2 x0 x1 x2 v6 v9 v12 v20 (ix2 q (c j)) * W2 (ix2 j o)) + b2 (ix1 o)
      = Cert.Spec.out (fun e j => Cert.Spec.silu (Q.pre P s r W1 b1 e j)) W2 b2 e o := by
  unfold Cert.Spec.out Cert.Spec.EdgeP.pre
  simp only [hidden_apply, fused, h0, h1, h2, hw6, hw9, hw12, hb]

-- A block row holding edge e's own, sender and receiver features and the sender's (dE, dS) gives e's term.
theorem edge_pay
    (h0 : ∀ k : Fin 128, x0 (ix2 q k) = Q.ea (ix2 e k))
    (h1 : ∀ k : Fin 128, x1 (ix2 q k) = P.x (ix2 (s e) k))
    (h2 : ∀ k : Fin 128, x2 (ix2 q k) = P.x (ix2 (r e) k))
    (h3 : x3 (ix2 q 0) = P.dE (s e) 0 ∧ x3 (ix2 q 1) = P.dE (s e) 1 ∧ x3 (ix2 q 2) = P.dS (s e) 0 ∧ x3 (ix2 q 3) = P.dS (s e) 1)
    (X : Cert.Spec.Arr2 384 256)
    (hv6 : ∀ (k : Fin 128) (j : Fin 256), v6 (ix2 k j) = X (ix2 ⟨k.val, by omega⟩ j))
    (hv9 : ∀ (k : Fin 128) (j : Fin 256), v9 (ix2 k j) = X (ix2 ⟨128 + k.val, by omega⟩ j))
    (hv12 : ∀ (k : Fin 128) (j : Fin 256), v12 (ix2 k j) = X (ix2 ⟨256 + k.val, by omega⟩ j))
    (hX : ∀ (k : Fin 384) (j : Fin 128), X (ix2 k ⟨j.val, by omega⟩) = Q.LeW1 (ix2 k j) ∧ X (ix2 k ⟨128 + j.val, by omega⟩) = Q.MeW1 (ix2 k j))
    (hb : ∀ j : Fin 128, v20 (ix1 ⟨j.val, by omega⟩) = Q.Leb1 (ix1 j) ∧ v20 (ix1 ⟨128 + j.val, by omega⟩) = Q.Meb1 (ix1 j))
    (h6 : x6 = Q.LeW2) (h7 : x7 = Q.Leb2) (h8 : x8 = Q.MeW2) (h9 : x9 = Q.Meb2) (i : Fin 2) :
    k1_pay1 (k1_pay3 x0 x1 x2 v6 v9 v12 v20) (k1_pay4 x0 x1 x2 v6 v9 v12 v20 x6 x7) x8 x9 x3 (ix2 q i) = Q.et P s r e i := by
  subst h6 h7 h8 h9
  have hle : k1_pay4 x0 x1 x2 v6 v9 v12 v20 Q.LeW2 Q.Leb2 (ix2 q (0 : Fin 1)) = Q.le P s r e :=
    (pay4_apply x0 x1 x2 v6 v9 v12 v20 _ _ q 0).trans
      (fused_head Q.LeW1 Q.Leb1 (fun j => ⟨j.val, by omega⟩) h0 h1 h2
        (fun k j => (hv6 k _).trans (hX _ j).1) (fun k j => (hv9 k _).trans (hX _ j).1) (fun k j => (hv12 k _).trans (hX _ j).1) (fun j => (hb j).1) _ _ 0)
  have hme : ∀ o : Fin 3, mOut (k1_pay3 x0 x1 x2 v6 v9 v12 v20) Q.MeW2 Q.Meb2 q o = Q.me P s r e o := fun o =>
    (congrArg (· + Q.Meb2 (ix1 o)) (Finset.sum_congr rfl fun j _ => congrArg (· * Q.MeW2 (ix2 j o)) (pay3_apply x0 x1 x2 v6 v9 v12 v20 q j))).trans
      (fused_head Q.MeW1 Q.Meb1 (fun j => ⟨128 + j.val, by omega⟩) h0 h1 h2
        (fun k j => (hv6 k _).trans (hX _ j).2) (fun k j => (hv9 k _).trans (hX _ j).2) (fun k j => (hv12 k _).trans (hX _ j).2) (fun j => (hb j).2) _ _ o)
  obtain ⟨d0, d1, d2, d3⟩ := h3
  obtain ⟨p0, p1⟩ := pay1_apply (k1_pay3 x0 x1 x2 v6 v9 v12 v20) (k1_pay4 x0 x1 x2 v6 v9 v12 v20 Q.LeW2 Q.Leb2) Q.MeW2 Q.Meb2 x3 q
  simp only [hle, hme, d0, d1, d2, d3] at p0 p1
  match i with
  | ⟨0, _⟩ => exact p0
  | ⟨1, _⟩ => exact p1

end EdgeRow

section Blocks
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem off_row : ∀ (t : Fin cfg1.N) (w : Fin cfg1.W), w.val < 4 ∨ w.val = 10 → ∀ a,
    (cfg1.win w).index t a * (cfg1.win w).size a = if a.val = 0 then t.val * 5000 else 0 :=
  (by decide +kernel : ∀ t : Fin grid1.N, _)

theorem idx_whole : ∀ (t : Fin cfg1.N) (w : Fin cfg1.W), 3 < w.val ∧ w.val < 10 → ∀ a, (cfg1.win w).index t a = 0 :=
  (by decide +kernel : ∀ t : Fin grid1.N, _)

theorem emb_row (t : Fin cfg1.N) (w : Fin cfg1.W) (hw : w.val < 4 ∨ w.val = 10) (y) (a) :
    (((cfg1.win w).rect t).emb y a : Nat) = y a + if a.val = 0 then t.val * 5000 else 0 :=
  ((cfg1.win w).rect_emb_val t y a).trans ((Nat.add_comm _ _).trans (congrArg ((y a : Nat) + ·) (off_row t w hw a)))

theorem emb_whole (t : Fin cfg1.N) (w : Fin cfg1.W) (hw : 3 < w.val ∧ w.val < 10) (y) (a) :
    (((cfg1.win w).rect t).emb y a : Nat) = y a :=
  (cfg1.win w).rect_emb_val_of_index_zero t a (idx_whole t w hw a) y

def edgeOf (t : Fin cfg1.N) (p : Fin 5000) : Fin 500000 :=
  ⟨p.val + t.val * 5000, by have := t.isLt; have hN : cfg1.N = 100 := N_1; omega⟩

theorem cover10 (i : S500000x2.Idx) : ∃ t : Fin cfg1.N, (cfg1.win 10).flush t = true ∧ i ∈ ((cfg1.win 10).blk t).view.set := by
  have hi0 : (i 0).val < 500000 := (i 0).isLt
  have hN : cfg1.N = 100 := N_1
  obtain ⟨t, ht⟩ : ∃ t : Fin cfg1.N, t.val = (i 0).val / 5000 := ⟨⟨(i 0).val / 5000, by omega⟩, rfl⟩
  have e : ((cfg1.win 10).blk t).view.emb (ix2 ⟨(i 0).val % 5000, Nat.mod_lt _ (by decide)⟩ (i 1)) = i :=
    Shape.idx_ext₂ ((emb_row t 10 (by decide) _ 0).trans (by show (i 0).val % 5000 + t.val * 5000 = (i 0).val; omega))
      (emb_row t 10 (by decide) _ 1)
  exact ⟨t, flush1_10 t, e ▸ View.emb_mem_set _ _⟩

theorem blk0_apply (c : Dev nD) (t : Fin cfg1.N) (p : Fin 5000) (k : Fin 128) :
    (Reg.iblk1 V c 0 t : Vec Ideal S5000x128 .f32) (ix2 p k) = (V c main_arg2 : Cert.Spec.Arr2 500000 128) (ix2 (edgeOf t p) k) :=
  congrArg (V c main_arg2) (Shape.idx_ext₂ (emb_row t 0 (by decide) _ 0) (emb_row t 0 (by decide) _ 1))

theorem blk1_apply (c : Dev nD) (t : Fin cfg1.N) (p : Fin 5000) (k : Fin 128) :
    (Reg.iblk1 V c 1 t : Vec Ideal S5000x128 .bf16) (ix2 p k) = (V c main_v18 : Cert.Spec.Arr2 500000 128) (ix2 (edgeOf t p) k) :=
  congrArg (V c main_v18) (Shape.idx_ext₂ (emb_row t 1 (by decide) _ 0) (emb_row t 1 (by decide) _ 1))

theorem blk2_apply (c : Dev nD) (t : Fin cfg1.N) (p : Fin 5000) (k : Fin 128) :
    (Reg.iblk1 V c 2 t : Vec Ideal S5000x128 .bf16) (ix2 p k) = (V c main_v25 : Cert.Spec.Arr2 500000 128) (ix2 (edgeOf t p) k) :=
  congrArg (V c main_v25) (Shape.idx_ext₂ (emb_row t 2 (by decide) _ 0) (emb_row t 2 (by decide) _ 1))

theorem blk3_apply (c : Dev nD) (t : Fin cfg1.N) (p : Fin 5000) (k : Fin 4) :
    (Reg.iblk1 V c 3 t : Vec Ideal S5000x4 .f32) (ix2 p k) = (V c main_v33 : Cert.Spec.Arr2 500000 4) (ix2 (edgeOf t p) k) :=
  congrArg (V c main_v33) (Shape.idx_ext₂ (emb_row t 3 (by decide) _ 0) (emb_row t 3 (by decide) _ 1))

theorem blk4 (c : Dev nD) (t : Fin cfg1.N) : (Reg.iblk1 V c 4 t : Cert.Spec.Arr2 384 256) = V c main_v34 :=
  funext fun y => congrArg (V c main_v34) (funext fun a => Fin.ext (emb_whole t 4 (by decide) y a))
theorem blk5 (c : Dev nD) (t : Fin cfg1.N) : (Reg.iblk1 V c 5 t : Cert.Spec.Arr1 256) = V c main_v35 :=
  funext fun y => congrArg (V c main_v35) (funext fun a => Fin.ext (emb_whole t 5 (by decide) y a))
theorem blk6 (c : Dev nD) (t : Fin cfg1.N) : (Reg.iblk1 V c 6 t : Cert.Spec.Arr2 128 1) = V c main_arg21 :=
  funext fun y => congrArg (V c main_arg21) (funext fun a => Fin.ext (emb_whole t 6 (by decide) y a))
theorem blk7 (c : Dev nD) (t : Fin cfg1.N) : (Reg.iblk1 V c 7 t : Cert.Spec.Arr1 1) = V c main_arg22 :=
  funext fun y => congrArg (V c main_arg22) (funext fun a => Fin.ext (emb_whole t 7 (by decide) y a))
theorem blk8 (c : Dev nD) (t : Fin cfg1.N) : (Reg.iblk1 V c 8 t : Cert.Spec.Arr2 128 3) = V c main_arg25 :=
  funext fun y => congrArg (V c main_arg25) (funext fun a => Fin.ext (emb_whole t 8 (by decide) y a))
theorem blk9 (c : Dev nD) (t : Fin cfg1.N) : (Reg.iblk1 V c 9 t : Cert.Spec.Arr1 3) = V c main_arg26 :=
  funext fun y => congrArg (V c main_arg26) (funext fun a => Fin.ext (emb_whole t 9 (by decide) y a))

-- A 128-row slab of a 384×256 array loaded from row o on: entry (k, j) is the array's (o + k, j).
theorem ld_slab_apply (X : Vec Ideal S384x256 .f32) (o : Nat)
    (inb : ∀ a, (![o, 0] : Fin 2 → Nat) a + S128x256.size a ≤ S384x256.size a) (k : Fin 128) (j : Fin 256) (k' : Fin 384)
    (hk : k'.val = o + k.val) :
    View.ld X (Rect.unit (s := S384x256) ![o, 0] S128x256.size inb) (ix2 k j) = X (ix2 k' j) :=
  congrArg X (Shape.idx_ext₂ (by show o + 1 * k.val = k'.val; omega) (by show 0 + 1 * j.val = j.val; omega))

end Blocks

end Edge

section Array
variable (V : (c : Dev nD) → (b : Ref sig .tc) → Buf (Elt Ideal) ((c : Thread nD τ).loc b))

open Edge in
theorem arr10 (c : Dev nD) (P : Cert.Spec.NodeP) (Q : Cert.Spec.EdgeP) (s r : Fin 500000 → Fin 50000)
    (hea : (V c main_arg2 : Cert.Spec.Arr2 500000 128) = Q.ea)
    (hsf : ∀ (e : Fin 500000) (k : Fin 128), (V c main_v18 : Cert.Spec.Arr2 500000 128) (ix2 e k) = P.x (ix2 (s e) k))
    (hrf : ∀ (e : Fin 500000) (k : Fin 128), (V c main_v25 : Cert.Spec.Arr2 500000 128) (ix2 e k) = P.x (ix2 (r e) k))
    (hdes : ∀ e : Fin 500000, (V c main_v33 : Cert.Spec.Arr2 500000 4) (ix2 e 0) = P.dE (s e) 0
      ∧ (V c main_v33 : Cert.Spec.Arr2 500000 4) (ix2 e 1) = P.dE (s e) 1
      ∧ (V c main_v33 : Cert.Spec.Arr2 500000 4) (ix2 e 2) = P.dS (s e) 0
      ∧ (V c main_v33 : Cert.Spec.Arr2 500000 4) (ix2 e 3) = P.dS (s e) 1)
    (hW : ∀ (k : Fin 384) (j : Fin 128), (V c main_v34 : Cert.Spec.Arr2 384 256) (ix2 k ⟨j.val, by omega⟩) = Q.LeW1 (ix2 k j)
      ∧ (V c main_v34 : Cert.Spec.Arr2 384 256) (ix2 k ⟨128 + j.val, by omega⟩) = Q.MeW1 (ix2 k j))
    (hb : ∀ j : Fin 128, (V c main_v35 : Cert.Spec.Arr1 256) (ix1 ⟨j.val, by omega⟩) = Q.Leb1 (ix1 j)
      ∧ (V c main_v35 : Cert.Spec.Arr1 256) (ix1 ⟨128 + j.val, by omega⟩) = Q.Meb1 (ix1 j))
    (h21 : (V c main_arg21 : Cert.Spec.Arr2 128 1) = Q.LeW2) (h22 : (V c main_arg22 : Cert.Spec.Arr1 1) = Q.Leb2)
    (h25 : (V c main_arg25 : Cert.Spec.Arr2 128 3) = Q.MeW2) (h26 : (V c main_arg26 : Cert.Spec.Arr1 3) = Q.Meb2) :
    (Reg.dat1 (F := Ideal) V c).arrAt 10 cfg1.N = Q.etA P s r :=
  (Reg.dat1 (F := Ideal) V c).arrAt_eq_of_cover 10 (Q.etA P s r) (fun t _ => by
    show (cfg1.win 10).cut (grid1.coords t) ((Reg.dat1 (F := Ideal) V c).after 10 t) = _
    rw [Reg.after1_10]
    unfold Reg.out1_10
    rw [View.canon_unit_zero hz2]
    simp only [View.ld_unit_zero (S := S5000x128) hz2, View.ld_unit_zero (S := S5000x4) hz2, View.ld_unit_zero (S := S256) hz1,
      View.ld_unit_zero (S := S128x1) hz2, View.ld_unit_zero (S := S1) hz1, View.ld_unit_zero (S := S128x3) hz2,
      View.ld_unit_zero (S := S3) hz1]
    refine funext fun (y : S5000x2.Idx) => ?_
    obtain ⟨p, i, rfl⟩ : ∃ (p : Fin 5000) (i : Fin 2), y = ix2 p i := ⟨y 0, y 1, eq_ix2 y⟩
    refine (edge_pay (P := P) (s := s) (r := r)
      (fun k => (blk0_apply V c t p k).trans (congrFun hea _))
      (fun k => (blk1_apply V c t p k).trans (hsf _ k))
      (fun k => (blk2_apply V c t p k).trans (hrf _ k))
      ⟨(blk3_apply V c t p 0).trans (hdes _).1, (blk3_apply V c t p 1).trans (hdes _).2.1,
        (blk3_apply V c t p 2).trans (hdes _).2.2.1, (blk3_apply V c t p 3).trans (hdes _).2.2.2⟩
      (V c main_v34)
      (fun k j => (ld_slab_apply _ 0 _ k j _ (Nat.zero_add _).symm).trans (congrFun (blk4 V c t) _))
      (fun k j => (ld_slab_apply _ 128 _ k j _ rfl).trans (congrFun (blk4 V c t) _))
      (fun k j => (ld_slab_apply _ 256 _ k j _ rfl).trans (congrFun (blk4 V c t) _)) hW
      (fun j => ⟨(congrFun (blk5 V c t) _).trans (hb j).1, (congrFun (blk5 V c t) _).trans (hb j).2⟩)
      ((blk6 V c t).trans h21) ((blk7 V c t).trans h22)
      ((blk8 V c t).trans h25) ((blk9 V c t).trans h26) i).trans ?_
    exact congrArg₂ (Q.et P s r) (Fin.ext (emb_row t 10 (by decide) (ix2 p i) 0).symm) (Fin.ext (emb_row t 10 (by decide) (ix2 p i) 1).symm)) cover10

end Array

end Cert.KernelIdeal.Val

end
-- ==== Proof.KIValMain.lean ====
import proofs.«406161_j39298950758847_3_alg».proof.Proof.KIHost
import proofs.«406161_j39298950758847_3_alg».proof.Proof.KIRun
import proofs.«406161_j39298950758847_3_alg».proof.Proof.KIVal0
import proofs.«406161_j39298950758847_3_alg».proof.Proof.KIVal1

noncomputable section

namespace Cert.KernelIdeal.Val

open Cert.KernelIdeal Cert.KernelIdeal.Gen
open Idealize.ShloMosaic Idealize.ShloMosaic.TcCoe Idealize.ShloMosaic.ValueIdx
open Idealize.ShloMosaic.StableHlo
open Idealize.SL.Sem

variable (m : (ℓ : Loc nD τ sig) → Buf (Elt Ideal) ℓ) (ρ : Dev nD → PrngReg)

variable (c : Dev nD)

def nodeP : Cert.Spec.NodeP where
  x := m ((c.tc : Thread nD τ).loc main_arg0)
  EgW1 := m ((c.tc : Thread nD τ).loc main_arg3)
  Egb1 := m ((c.tc : Thread nD τ).loc main_arg4)
  EgW2 := m ((c.tc : Thread nD τ).loc main_arg5)
  Egb2 := m ((c.tc : Thread nD τ).loc main_arg6)
  SgW1 := m ((c.tc : Thread nD τ).loc main_arg7)
  Sgb1 := m ((c.tc : Thread nD τ).loc main_arg8)
  SgW2 := m ((c.tc : Thread nD τ).loc main_arg9)
  Sgb2 := m ((c.tc : Thread nD τ).loc main_arg10)
  LnW1 := m ((c.tc : Thread nD τ).loc main_arg11)
  Lnb1 := m ((c.tc : Thread nD τ).loc main_arg12)
  LnW2 := m ((c.tc : Thread nD τ).loc main_arg13)
  Lnb2 := m ((c.tc : Thread nD τ).loc main_arg14)
  MnW1 := m ((c.tc : Thread nD τ).loc main_arg15)
  Mnb1 := m ((c.tc : Thread nD τ).loc main_arg16)
  MnW2 := m ((c.tc : Thread nD τ).loc main_arg17)
  Mnb2 := m ((c.tc : Thread nD τ).loc main_arg18)

def edgeP : Cert.Spec.EdgeP where
  ea := m ((c.tc : Thread nD τ).loc main_arg2)
  LeW1 := m ((c.tc : Thread nD τ).loc main_arg19)
  Leb1 := m ((c.tc : Thread nD τ).loc main_arg20)
  LeW2 := m ((c.tc : Thread nD τ).loc main_arg21)
  Leb2 := m ((c.tc : Thread nD τ).loc main_arg22)
  MeW1 := m ((c.tc : Thread nD τ).loc main_arg23)
  Meb1 := m ((c.tc : Thread nD τ).loc main_arg24)
  MeW2 := m ((c.tc : Thread nD τ).loc main_arg25)
  Meb2 := m ((c.tc : Thread nD τ).loc main_arg26)

def sendV (a1 : IVec S2x500000 32) : IVec S500000 32 :=
  shapeCast S500000 (extractStridedSlice S1x500000 ![0, 0] a1 slices_S2x500000_S1x500000_0_0) shapeCasts_S1x500000_S500000

def recvV (a1 : IVec S2x500000 32) : IVec S500000 32 :=
  shapeCast S500000 (extractStridedSlice S1x500000 ![1, 0] a1 slices_S2x500000_S1x500000_1_0) shapeCasts_S1x500000_S500000

def wrapCol (v : IVec S500000 32) : IVec S500000x1 32 :=
  broadcastInDim S500000x1 ![0] bcast_S500000_S500000x1_0
    (select (cmpi .slt (v) (broadcastInDim S500000 ![] bcast_S_S500000 (constantI S_ 32 0#32)))
      (addi (v) (broadcastInDim S500000 ![] bcast_S_S500000 (constantI S_ 32 50000#32)))
      (v))

def sIdx (a1 : IVec S2x500000 32) : IVec S500000x1 32 :=
  broadcastInDim S500000x1 ![0] bcast_S500000_S500000x1_0
    (select (cmpi .slt (shapeCast S500000 (extractStridedSlice S1x500000 ![0, 0] a1 slices_S2x500000_S1x500000_0_0) shapeCasts_S1x500000_S500000) (broadcastInDim S500000 ![] bcast_S_S500000 (constantI S_ 32 0#32)))
      (addi (shapeCast S500000 (extractStridedSlice S1x500000 ![0, 0] a1 slices_S2x500000_S1x500000_0_0) shapeCasts_S1x500000_S500000) (broadcastInDim S500000 ![] bcast_S_S500000 (constantI S_ 32 50000#32)))
      (shapeCast S500000 (extractStridedSlice S1x500000 ![0, 0] a1 slices_S2x500000_S1x500000_0_0) shapeCasts_S1x500000_S500000))

def rIdx (a1 : IVec S2x500000 32) : IVec S500000x1 32 :=
  broadcastInDim S500000x1 ![0] bcast_S500000_S500000x1_0
    (select (cmpi .slt (shapeCast S500000 (extractStridedSlice S1x500000 ![1, 0] a1 slices_S2x500000_S1x500000_1_0) shapeCasts_S1x500000_S500000) (broadcastInDim S500000 ![] bcast_S_S500000 (constantI S_ 32 0#32)))
      (addi (shapeCast S500000 (extractStridedSlice S1x500000 ![1, 0] a1 slices_S2x500000_S1x500000_1_0) shapeCasts_S1x500000_S500000) (broadcastInDim S500000 ![] bcast_S_S500000 (constantI S_ 32 50000#32)))
      (shapeCast S500000 (extractStridedSlice S1x500000 ![1, 0] a1 slices_S2x500000_S1x500000_1_0) shapeCasts_S1x500000_S500000))

def scIdx (a1 : IVec S2x500000 32) : IVec S500000x1 32 :=
  broadcastInDim S500000x1 ![0] bcast_S500000_S500000x1_0 (shapeCast S500000 (extractStridedSlice S1x500000 ![1, 0] a1 slices_S2x500000_S1x500000_1_0) shapeCasts_S1x500000_S500000)

theorem sIdx_eq (a1 : IVec S2x500000 32) : sIdx a1 = wrapCol (sendV a1) := rfl
theorem rIdx_eq (a1 : IVec S2x500000 32) : rIdx a1 = wrapCol (recvV a1) := rfl
theorem scIdx_eq (a1 : IVec S2x500000 32) :
    scIdx a1 = broadcastInDim S500000x1 ![0] bcast_S500000_S500000x1_0 (recvV a1) := rfl

theorem W1_arg (r : Ref sig .tc) (h0 : r ∉ hostOps0_W) :
    Reg.W1 m ρ c (Proc.devRef .tc r) = m ((c.tc : Thread nD τ).loc r) :=
  Reg.W1_of m ρ c r h0

theorem W2_arg (r : Ref sig .tc) (h0 : r ∉ hostOps0_W) (hw0 : ∀ w, Pipeline.arrRef spec0 w ≠ r) :
    Reg.W2 m ρ c (Proc.devRef .tc r) = m ((c.tc : Thread nD τ).loc r) :=
  (Reg.W2_of_ne m ρ c r hw0).trans (W1_arg m ρ c r h0)

theorem W3_arg (r : Ref sig .tc) (h0 : r ∉ hostOps0_W) (hw0 : ∀ w, Pipeline.arrRef spec0 w ≠ r) (h1 : r ∉ hostOps1_W) :
    Reg.W3 m ρ c (Proc.devRef .tc r) = m ((c.tc : Thread nD τ).loc r) :=
  (Reg.W3_of m ρ c r h1).trans (W2_arg m ρ c r h0 hw0)

theorem W1_v1 : (Reg.W1 m ρ c (Proc.devRef .tc main_v1) : IVec S500000 32) = sendV (m ((c.tc : Thread nD τ).loc main_arg1)) := by
  show StableHlo.after hostOps0 _ (Proc.devRef .tc main_v1) = _
  after_results <;> rfl

theorem W1_v3 : (Reg.W1 m ρ c (Proc.devRef .tc main_v3) : IVec S500000 32) = recvV (m ((c.tc : Thread nD τ).loc main_arg1)) := by
  show StableHlo.after hostOps0 _ (Proc.devRef .tc main_v3) = _
  after_results <;> rfl

theorem W1_v4 :
    (Reg.W1 m ρ c (Proc.devRef .tc main_v4) : S128x512.Idx → EReal)
      = concatenate S128x512 1 [⟨S128x128, m ((c.tc : Thread nD τ).loc main_arg3)⟩, ⟨S128x128, m ((c.tc : Thread nD τ).loc main_arg7)⟩,
          ⟨S128x128, m ((c.tc : Thread nD τ).loc main_arg11)⟩, ⟨S128x128, m ((c.tc : Thread nD τ).loc main_arg15)⟩]
          concatenates_S128x128_S128x128_S128x128_S128x128_S128x512_d1 := by
  show StableHlo.after hostOps0 _ (Proc.devRef .tc main_v4) = _
  after_results <;> rfl

theorem W1_v5 :
    (Reg.W1 m ρ c (Proc.devRef .tc main_v5) : S512.Idx → EReal)
      = concatenate S512 0 [⟨S128, m ((c.tc : Thread nD τ).loc main_arg4)⟩, ⟨S128, m ((c.tc : Thread nD τ).loc main_arg8)⟩,
          ⟨S128, m ((c.tc : Thread nD τ).loc main_arg12)⟩, ⟨S128, m ((c.tc : Thread nD τ).loc main_arg16)⟩]
          concatenates_S128_S128_S128_S128_S512_d0 := by
  show StableHlo.after hostOps0 _ (Proc.devRef .tc main_v5) = _
  after_results <;> rfl

theorem W2_v6_0 : (Reg.W2 m ρ c (Proc.devRef .tc main_v6_0) : Cert.Spec.Arr2 50000 10) = (nodeP m c).node10A :=
  (Reg.W2_arr m ρ c 11).trans
    (arr11 (Reg.V1 m ρ) c (nodeP m c)
      (W1_arg m ρ c main_arg0 (by decide))
      (fun k j =>
        ⟨(congrFun (W1_v4 m ρ c) _).trans (cat4_cols _ _ _ _ _ k j).1,
         (congrFun (W1_v4 m ρ c) _).trans (cat4_cols _ _ _ _ _ k j).2.1,
         (congrFun (W1_v4 m ρ c) _).trans (cat4_cols _ _ _ _ _ k j).2.2.1,
         (congrFun (W1_v4 m ρ c) _).trans (cat4_cols _ _ _ _ _ k j).2.2.2⟩)
      (fun j =>
        ⟨(congrFun (W1_v5 m ρ c) _).trans (cat4_vec _ _ _ _ _ j).1,
         (congrFun (W1_v5 m ρ c) _).trans (cat4_vec _ _ _ _ _ j).2.1,
         (congrFun (W1_v5 m ρ c) _).trans (cat4_vec _ _ _ _ _ j).2.2.1,
         (congrFun (W1_v5 m ρ c) _).trans (cat4_vec _ _ _ _ _ j).2.2.2⟩)
      (W1_arg m ρ c main_arg5 (by decide)) (W1_arg m ρ c main_arg6 (by decide))
      (W1_arg m ρ c main_arg9 (by decide)) (W1_arg m ρ c main_arg10 (by decide))
      (W1_arg m ρ c main_arg13 (by decide)) (W1_arg m ρ c main_arg14 (by decide))
      (W1_arg m ρ c main_arg17 (by decide)) (W1_arg m ρ c main_arg18 (by decide)))

theorem W2_v6_1 : (Reg.W2 m ρ c (Proc.devRef .tc main_v6_1) : Cert.Spec.Arr2 50000 128) = (nodeP m c).x :=
  (Reg.W2_arr m ρ c 12).trans (arr12 (Reg.V1 m ρ) c (nodeP m c).x (W1_arg m ρ c main_arg0 (by decide)))

theorem W2_v1 : (Reg.W2 m ρ c (Proc.devRef .tc main_v1) : IVec S500000 32) = sendV (m ((c.tc : Thread nD τ).loc main_arg1)) :=
  (Reg.W2_of_ne m ρ c main_v1 (by decide)).trans (W1_v1 m ρ c)

theorem W2_v3 : (Reg.W2 m ρ c (Proc.devRef .tc main_v3) : IVec S500000 32) = recvV (m ((c.tc : Thread nD τ).loc main_arg1)) :=
  (Reg.W2_of_ne m ρ c main_v3 (by decide)).trans (W1_v3 m ρ c)

theorem W3_v9 : (Reg.W3 m ρ c (Proc.devRef .tc main_v9) : S50000x2.Idx → EReal)
    = extractStridedSlice S50000x2 ![0, 4] (Reg.W2 m ρ c (Proc.devRef .tc main_v6_0) : S50000x10.Idx → EReal) slices_S50000x10_S50000x2_0_4 := by
  show StableHlo.after hostOps1 _ (Proc.devRef .tc main_v9) = _
  after_results_simp <;> rfl

theorem W3_v10 : (Reg.W3 m ρ c (Proc.devRef .tc main_v10) : S50000x2.Idx → EReal)
    = extractStridedSlice S50000x2 ![0, 6] (Reg.W2 m ρ c (Proc.devRef .tc main_v6_0) : S50000x10.Idx → EReal) slices_S50000x10_S50000x2_0_6 := by
  show StableHlo.after hostOps1 _ (Proc.devRef .tc main_v10) = _
  after_results_simp <;> rfl

theorem W3_v11 : (Reg.W3 m ρ c (Proc.devRef .tc main_v11) : S50000x2.Idx → EReal)
    = extractStridedSlice S50000x2 ![0, 8] (Reg.W2 m ρ c (Proc.devRef .tc main_v6_0) : S50000x10.Idx → EReal) slices_S50000x10_S50000x2_0_8 := by
  show StableHlo.after hostOps1 _ (Proc.devRef .tc main_v11) = _
  after_results_simp <;> rfl

theorem W3_v18 : (Reg.W3 m ρ c (Proc.devRef .tc main_v18) : S500000x128.Idx → EReal)
    = Host.gather gather_S50000x128_S500000x1_S500000x128_1_0_n_n_0_1_1128 (Reg.W2 m ρ c (Proc.devRef .tc main_v6_1) : S50000x128.Idx → EReal)
        (wrapCol (Reg.W2 m ρ c (Proc.devRef .tc main_v1))) := by
  show StableHlo.after hostOps1 _ (Proc.devRef .tc main_v18) = _
  after_results_simp <;> rfl

theorem W3_v25 : (Reg.W3 m ρ c (Proc.devRef .tc main_v25) : S500000x128.Idx → EReal)
    = Host.gather gather_S50000x128_S500000x1_S500000x128_1_0_n_n_0_1_1128 (Reg.W2 m ρ c (Proc.devRef .tc main_v6_1) : S50000x128.Idx → EReal)
        (wrapCol (Reg.W2 m ρ c (Proc.devRef .tc main_v3))) := by
  show StableHlo.after hostOps1 _ (Proc.devRef .tc main_v25) = _
  after_results_simp <;> rfl

theorem W3_v33 : (Reg.W3 m ρ c (Proc.devRef .tc main_v33) : S500000x4.Idx → EReal)
    = Host.gather gather_S50000x4_S500000x1_S500000x4_1_0_n_n_0_1_14
        (concatenate S50000x4 1
          [⟨S50000x2, extractStridedSlice S50000x2 ![0, 0] (Reg.W2 m ρ c (Proc.devRef .tc main_v6_0) : S50000x10.Idx → EReal) slices_S50000x10_S50000x2_0_0⟩,
           ⟨S50000x2, extractStridedSlice S50000x2 ![0, 2] (Reg.W2 m ρ c (Proc.devRef .tc main_v6_0) : S50000x10.Idx → EReal) slices_S50000x10_S50000x2_0_2⟩]
          concatenates_S50000x2_S50000x2_S50000x4_d1)
        (wrapCol (Reg.W2 m ρ c (Proc.devRef .tc main_v1))) := by
  show StableHlo.after hostOps1 _ (Proc.devRef .tc main_v33) = _
  after_results_simp <;> rfl

theorem W3_v34 : (Reg.W3 m ρ c (Proc.devRef .tc main_v34) : S384x256.Idx → EReal)
    = concatenate S384x256 1 [⟨S384x128, (Reg.W2 m ρ c (Proc.devRef .tc main_arg19) : S384x128.Idx → EReal)⟩, ⟨S384x128, (Reg.W2 m ρ c (Proc.devRef .tc main_arg23) : S384x128.Idx → EReal)⟩]
        concatenates_S384x128_S384x128_S384x256_d1 := by
  show StableHlo.after hostOps1 _ (Proc.devRef .tc main_v34) = _
  after_results_simp <;> rfl

theorem W3_v35 : (Reg.W3 m ρ c (Proc.devRef .tc main_v35) : S256.Idx → EReal)
    = concatenate S256 0 [⟨S128, (Reg.W2 m ρ c (Proc.devRef .tc main_arg20) : S128.Idx → EReal)⟩, ⟨S128, (Reg.W2 m ρ c (Proc.devRef .tc main_arg24) : S128.Idx → EReal)⟩]
        concatenates_S128_S128_S256_d0 := by
  show StableHlo.after hostOps1 _ (Proc.devRef .tc main_v35) = _
  after_results_simp <;> rfl

theorem slice_node10 (o : Nat) (ho : o + 2 ≤ 10) (h : S50000x10.Slices ![0, o] S50000x2) (n : Fin 50000) (i : Fin 2) :
    extractStridedSlice S50000x2 ![0, o] (Reg.W2 m ρ c (Proc.devRef .tc main_v6_0) : S50000x10.Idx → EReal) h (ix2 n i)
      = (nodeP m c).node10 n (⟨o + i.val, by omega⟩ : Fin 10) :=
  (slice_cols o ho _ h n i).trans (congrFun (W2_v6_0 m ρ c) _)

theorem W3_v33_apply (e : Fin 500000) (i : Fin 2) :
    (Reg.W3 m ρ c (Proc.devRef .tc main_v33) : S500000x4.Idx → EReal) (ix2 e (⟨i.val, by omega⟩ : Fin 4))
        = (nodeP m c).node10 (Cert.Spec.rowOf (sIdx (m ((c.tc : Thread nD τ).loc main_arg1))) e) (⟨0 + i.val, by omega⟩ : Fin 10)
    ∧ (Reg.W3 m ρ c (Proc.devRef .tc main_v33) : S500000x4.Idx → EReal) (ix2 e (⟨2 + i.val, by omega⟩ : Fin 4))
        = (nodeP m c).node10 (Cert.Spec.rowOf (sIdx (m ((c.tc : Thread nD τ).loc main_arg1))) e) (⟨2 + i.val, by omega⟩ : Fin 10) := by
  rw [W3_v33, W2_v1, ← sIdx_eq]
  refine ⟨?_, ?_⟩
  · refine (gather4_apply _ _ e _).trans ?_
    refine ((cat2_cols4 _ _ _ _ i).1).trans ?_
    exact slice_node10 m ρ c 0 (by omega) _ _ i
  · refine (gather4_apply _ _ e _).trans ?_
    refine ((cat2_cols4 _ _ _ _ i).2).trans ?_
    exact slice_node10 m ρ c 2 (by omega) _ _ i

theorem W4_v36 : (Reg.W4 m ρ c (Proc.devRef .tc main_v36) : Cert.Spec.Arr2 500000 2)
    = (edgeP m c).etA (nodeP m c) (Cert.Spec.rowOf (sIdx (m ((c.tc : Thread nD τ).loc main_arg1)))) (Cert.Spec.rowOf (rIdx (m ((c.tc : Thread nD τ).loc main_arg1)))) :=
  (Reg.W4_arr m ρ c 10).trans
    (arr10 (Reg.V3 m ρ) c (nodeP m c) (edgeP m c) _ _
      (W3_arg m ρ c main_arg2 (by decide) (by decide) (by decide))
      (fun e k => by
        show (Reg.W3 m ρ c (Proc.devRef .tc main_v18) : S500000x128.Idx → EReal) (ix2 e k) = _
        rw [W3_v18, W2_v1, ← sIdx_eq, W2_v6_1]
        exact gather128_apply _ _ e k)
      (fun e k => by
        show (Reg.W3 m ρ c (Proc.devRef .tc main_v25) : S500000x128.Idx → EReal) (ix2 e k) = _
        rw [W3_v25, W2_v3, ← rIdx_eq, W2_v6_1]
        exact gather128_apply _ _ e k)
      (fun e =>
        ⟨(W3_v33_apply m ρ c e 0).1, (W3_v33_apply m ρ c e 1).1, (W3_v33_apply m ρ c e 0).2, (W3_v33_apply m ρ c e 1).2⟩)
      (fun k j => by
        have e19 := W2_arg m ρ c main_arg19 (by decide) (by decide)
        have e23 := W2_arg m ρ c main_arg23 (by decide) (by decide)
        show (Reg.W3 m ρ c (Proc.devRef .tc main_v34) : S384x256.Idx → EReal) _ = _ ∧ (Reg.W3 m ρ c (Proc.devRef .tc main_v34) : S384x256.Idx → EReal) _ = _
        rw [W3_v34, e19, e23]
        exact cat2_cols384 _ _ _ k j)
      (fun j => by
        have e20 := W2_arg m ρ c main_arg20 (by decide) (by decide)
        have e24 := W2_arg m ρ c main_arg24 (by decide) (by decide)
        show (Reg.W3 m ρ c (Proc.devRef .tc main_v35) : S256.Idx → EReal) _ = _ ∧ (Reg.W3 m ρ c (Proc.devRef .tc main_v35) : S256.Idx → EReal) _ = _
        rw [W3_v35, e20, e24]
        exact cat2_vec _ _ _ j)
      (W3_arg m ρ c main_arg21 (by decide) (by decide) (by decide))
      (W3_arg m ρ c main_arg22 (by decide) (by decide) (by decide))
      (W3_arg m ρ c main_arg25 (by decide) (by decide) (by decide))
      (W3_arg m ρ c main_arg26 (by decide) (by decide) (by decide)))

theorem W4_v9 : (Reg.W4 m ρ c (Proc.devRef .tc main_v9) : Cert.Spec.Arr2 50000 2) = (nodeP m c).ntA := by
  refine (Reg.W4_of_ne m ρ c main_v9 (by decide)).trans ?_
  rw [W3_v9]
  funext y
  obtain ⟨n, i, rfl⟩ : ∃ (n : Fin 50000) (i : Fin 2), y = ix2 n i := ⟨y 0, y 1, eq_ix2 y⟩
  refine (slice_node10 m ρ c 4 (by omega) _ n i).trans ?_
  match i with
  | ⟨0, _⟩ => rfl
  | ⟨1, _⟩ => rfl

theorem bcast_node10 (o : Nat) (ho : o + 2 ≤ 10) (h : S50000x10.Slices ![0, o] S50000x2) (n : Fin 50000) (i : Fin 2) (z : Fin 1) :
    broadcastInDim S50000x2x1 ![0, 1] bcast_S50000x2_S50000x2x1_0_1
        (extractStridedSlice S50000x2 ![0, o] (Reg.W2 m ρ c (Proc.devRef .tc main_v6_0) : S50000x10.Idx → EReal) h) (ix3 n i z)
      = (nodeP m c).node10 n (⟨o + i.val, by omega⟩ : Fin 10) :=
  (bcast_unit _ _ n i z).trans (slice_node10 m ρ c o ho h n i)

theorem W4_v3 : (Reg.W4 m ρ c (Proc.devRef .tc main_v3) : IVec S500000 32) = recvV (m ((c.tc : Thread nD τ).loc main_arg1)) :=
  (Reg.W4_of_ne m ρ c main_v3 (by decide)).trans ((Reg.W3_of m ρ c main_v3 (by decide)).trans (W2_v3 m ρ c))

theorem W5_v40 : (Reg.W5 m ρ c (Proc.devRef .tc main_v40) : S50000x2.Idx → EReal)
    = subf (Reg.W4 m ρ c (Proc.devRef .tc main_v9) : S50000x2.Idx → EReal)
        (Host.scatterAdd scatter_S50000x2_S500000x1_S500000x2_1_0_0_1 (broadcastInDim S50000x2 ![] bcast_S_S50000x2 (constant (F := Ideal) S_ .f32 0x00000000#32))
          (broadcastInDim S500000x1 ![0] bcast_S500000_S500000x1_0 (Reg.W4 m ρ c (Proc.devRef .tc main_v3) : IVec S500000 32))
          (Reg.W4 m ρ c (Proc.devRef .tc main_v36) : S500000x2.Idx → EReal)) := by
  show StableHlo.after hostOps2 _ (Proc.devRef .tc main_v40) = _
  after_results <;> rfl

theorem W5_v41 : (Reg.W5 m ρ c (Proc.devRef .tc main_v41) : S50000x2x1.Idx → EReal)
    = broadcastInDim S50000x2x1 ![0, 1] bcast_S50000x2_S50000x2x1_0_1 (Reg.W4 m ρ c (Proc.devRef .tc main_v10) : S50000x2.Idx → EReal) := by
  show StableHlo.after hostOps2 _ (Proc.devRef .tc main_v41) = _
  after_results <;> rfl

theorem W5_v42 : (Reg.W5 m ρ c (Proc.devRef .tc main_v42) : S50000x2x1.Idx → EReal)
    = broadcastInDim S50000x2x1 ![0, 1] bcast_S50000x2_S50000x2x1_0_1 (Reg.W4 m ρ c (Proc.devRef .tc main_v11) : S50000x2.Idx → EReal) := by
  show StableHlo.after hostOps2 _ (Proc.devRef .tc main_v42) = _
  after_results <;> rfl

theorem results :
    (Reg.W5 m ρ c (Proc.devRef .tc main_v40) : Cert.Spec.Arr2 50000 2)
        = subf (nodeP m c).ntA
            (Host.scatterAdd scatter_S50000x2_S500000x1_S500000x2_1_0_0_1 (broadcastInDim S50000x2 ![] bcast_S_S50000x2 (constant (F := Ideal) S_ .f32 0x00000000#32))
              (scIdx (m ((c.tc : Thread nD τ).loc main_arg1)))
              ((edgeP m c).etA (nodeP m c) (Cert.Spec.rowOf (sIdx (m ((c.tc : Thread nD τ).loc main_arg1)))) (Cert.Spec.rowOf (rIdx (m ((c.tc : Thread nD τ).loc main_arg1))))))
    ∧ (Reg.W5 m ρ c (Proc.devRef .tc main_v41) : Cert.Spec.Arr3 50000 2 1) = (nodeP m c).degEA
    ∧ (Reg.W5 m ρ c (Proc.devRef .tc main_v42) : Cert.Spec.Arr3 50000 2 1) = (nodeP m c).degSA := by
  refine ⟨?_, ?_, ?_⟩
  · rw [W5_v40, W4_v9, W4_v3, W4_v36, ← scIdx_eq]
  · rw [W5_v41]
    refine (congrArg _ ((Reg.W4_of_ne m ρ c main_v10 (by decide)).trans (W3_v10 m ρ c))).trans ?_
    funext y
    obtain ⟨n, i, z, rfl⟩ : ∃ (n : Fin 50000) (i : Fin 2) (z : Fin 1), y = ix3 n i z := ⟨y 0, y 1, y 2, eq_ix3 y⟩
    refine (bcast_node10 m ρ c 6 (by omega) _ n i z).trans ?_
    match i with
    | ⟨0, _⟩ => rfl
    | ⟨1, _⟩ => rfl
  · rw [W5_v42]
    refine (congrArg _ ((Reg.W4_of_ne m ρ c main_v11 (by decide)).trans (W3_v11 m ρ c))).trans ?_
    funext y
    obtain ⟨n, i, z, rfl⟩ : ∃ (n : Fin 50000) (i : Fin 2) (z : Fin 1), y = ix3 n i z := ⟨y 0, y 1, y 2, eq_ix3 y⟩
    refine (bcast_node10 m ρ c 8 (by omega) _ n i z).trans ?_
    match i with
    | ⟨0, _⟩ => rfl
    | ⟨1, _⟩ => rfl

end Cert.KernelIdeal.Val

end
-- ==== Proof.RefRun0.lean ====
import proofs.«406161_j39298950758847_3_alg».proof.Proof.Gen.ReferenceIdeal
import Idealize.ShloMosaic.Lib.StableHlo.Run
import Idealize.ShloMosaic.Lib.Pipeline.Frame

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

def ops0a : List (HloOp τ sig (Elt F)) :=
  [ nullary main_c (constantI S1 32 1#32),
    nullary main_c_0 (constantI S1 1 0#1),
    nullary main_c_1 (constantI S1 32 0#32),
    nullary main_c_2 (constantI S1 1 0#1),
    nullary main_c_3 (fun i => lit0 (S3.rowMajor i)),
    nullary main_c_4 (constantI S3 1 0#1),
    nullary main_c_5 (fun i => lit1 (S3.rowMajor i)),
    nullary main_c_6 (constantI S3 1 0#1),
    nullary main_c_7 (constantI S1 1 0#1),
    nullary main_c_8 (constantI S1 1 0#1),
    nullary main_c_9 (constantI S3 1 0#1),
    nullary main_c_10 (constantI S3 1 0#1),
    unary main_arg1 main_v0 (extractStridedSlice S1x500000 ![0, 0] · slices_S2x500000_S1x500000_0_0),
    reshape main_v0 main_v1 rfl shapeCasts_S1x500000_S500000,
    unary main_arg1 main_v2 (extractStridedSlice S1x500000 ![1, 0] · slices_S2x500000_S1x500000_1_0),
    reshape main_v2 main_v3 rfl shapeCasts_S1x500000_S500000 ]

abbrev ops0a_W : List (Ref sig .tc) := [main_c, main_c_0, main_c_1, main_c_2, main_c_3, main_c_4, main_c_5, main_c_6, main_c_7, main_c_8, main_c_9, main_c_10, main_v0, main_v1, main_v2, main_v3]

def ops0b : List (HloOp τ sig (Elt F)) :=
  [ binary main_arg0 main_arg3 main_v4 (fun l r => Host.dotGeneral dot_S50000x128_S128x128_S50000x128_1_0_0_1_n_n none l r),
    unary main_arg4 main_v5 (broadcastInDim S1x128 ![1] bcast_S128_S1x128_1),
    unary main_v5 main_v6 (broadcastInDim S50000x128 ![0, 1] bcast_S1x128_S50000x128_0_1),
    binary main_v4 main_v6 main_v7 addf,
    TRef.unary (.of main_v7) main_call0.v0 Host.negf,
    TRef.unary main_call0.v0 main_call0.v1 Host.exp,
    TRef.nullary main_call0.cst (constant S_ .f32 0x3F800000#32),
    TRef.unary main_call0.cst main_call0.v2 (broadcastInDim S50000x128 ![] bcast_S_S50000x128),
    TRef.binary main_call0.v2 main_call0.v1 main_call0.v3 addf,
    TRef.nullary main_call0.cst_0 (constant S_ .f32 0x3F800000#32),
    TRef.unary main_call0.cst_0 main_call0.v4 (broadcastInDim S50000x128 ![] bcast_S_S50000x128),
    TRef.binary main_call0.v4 main_call0.v3 main_call0.v5 Host.divf,
    TRef.binary (.of main_v7) main_call0.v5 main_call0.v6 mulf,
    binary main_v8 main_arg5 main_v9 (fun l r => Host.dotGeneral dot_S50000x128_S128x2_S50000x2_1_0_0_1_n_n none l r),
    unary main_arg6 main_v10 (broadcastInDim S1x2 ![1] bcast_S2_S1x2_1),
    unary main_v10 main_v11 (broadcastInDim S50000x2 ![0, 1] bcast_S1x2_S50000x2_0_1),
    binary main_v9 main_v11 main_v12 addf,
    unary main_v12 main_v13 (broadcastInDim S50000x2x1 ![0, 1] bcast_S50000x2_S50000x2x1_0_1) ]

abbrev ops0b_W : List (Ref sig .tc) := [main_v4, main_v5, main_v6, main_v7, main_call0_v0, main_call0_v1, main_call0_cst, main_call0_v2, main_call0_v3, main_call0_cst_0, main_call0_v4, main_call0_v5, main_v8, main_v9, main_v10, main_v11, main_v12, main_v13]

def ops0c : List (HloOp τ sig (Elt F)) :=
  [ binary main_arg0 main_arg7 main_v14 (fun l r => Host.dotGeneral dot_S50000x128_S128x128_S50000x128_1_0_0_1_n_n none l r),
    unary main_arg8 main_v15 (broadcastInDim S1x128 ![1] bcast_S128_S1x128_1),
    unary main_v15 main_v16 (broadcastInDim S50000x128 ![0, 1] bcast_S1x128_S50000x128_0_1),
    binary main_v14 main_v16 main_v17 addf,
    TRef.unary (.of main_v17) main_call1.v0 Host.negf,
    TRef.unary main_call1.v0 main_call1.v1 Host.exp,
    TRef.nullary main_call1.cst (constant S_ .f32 0x3F800000#32),
    TRef.unary main_call1.cst main_call1.v2 (broadcastInDim S50000x128 ![] bcast_S_S50000x128),
    TRef.binary main_call1.v2 main_call1.v1 main_call1.v3 addf,
    TRef.nullary main_call1.cst_0 (constant S_ .f32 0x3F800000#32),
    TRef.unary main_call1.cst_0 main_call1.v4 (broadcastInDim S50000x128 ![] bcast_S_S50000x128),
    TRef.binary main_call1.v4 main_call1.v3 main_call1.v5 Host.divf,
    TRef.binary (.of main_v17) main_call1.v5 main_call1.v6 mulf,
    binary main_v18 main_arg9 main_v19 (fun l r => Host.dotGeneral dot_S50000x128_S128x2_S50000x2_1_0_0_1_n_n none l r),
    unary main_arg10 main_v20 (broadcastInDim S1x2 ![1] bcast_S2_S1x2_1),
    unary main_v20 main_v21 (broadcastInDim S50000x2 ![0, 1] bcast_S1x2_S50000x2_0_1),
    binary main_v19 main_v21 main_v22 addf,
    unary main_v22 main_v23 (broadcastInDim S50000x2x1 ![0, 1] bcast_S50000x2_S50000x2x1_0_1) ]

abbrev ops0c_W : List (Ref sig .tc) := [main_v14, main_v15, main_v16, main_v17, main_call1_v0, main_call1_v1, main_call1_cst, main_call1_v2, main_call1_v3, main_call1_cst_0, main_call1_v4, main_call1_v5, main_v18, main_v19, main_v20, main_v21, main_v22, main_v23]

def ops0d : List (HloOp τ sig (Elt F)) :=
  [ binary main_arg0 main_arg11 main_v24 (fun l r => Host.dotGeneral dot_S50000x128_S128x128_S50000x128_1_0_0_1_n_n none l r),
    unary main_arg12 main_v25 (broadcastInDim S1x128 ![1] bcast_S128_S1x128_1),
    unary main_v25 main_v26 (broadcastInDim S50000x128 ![0, 1] bcast_S1x128_S50000x128_0_1),
    binary main_v24 main_v26 main_v27 addf,
    TRef.unary (.of main_v27) main_call2.v0 Host.negf,
    TRef.unary main_call2.v0 main_call2.v1 Host.exp,
    TRef.nullary main_call2.cst (constant S_ .f32 0x3F800000#32),
    TRef.unary main_call2.cst main_call2.v2 (broadcastInDim S50000x128 ![] bcast_S_S50000x128),
    TRef.binary main_call2.v2 main_call2.v1 main_call2.v3 addf,
    TRef.nullary main_call2.cst_0 (constant S_ .f32 0x3F800000#32),
    TRef.unary main_call2.cst_0 main_call2.v4 (broadcastInDim S50000x128 ![] bcast_S_S50000x128),
    TRef.binary main_call2.v4 main_call2.v3 main_call2.v5 Host.divf,
    TRef.binary (.of main_v27) main_call2.v5 main_call2.v6 mulf,
    binary main_v28 main_arg13 main_v29 (fun l r => Host.dotGeneral dot_S50000x128_S128x1_S50000x1_1_0_0_1_n_n none l r),
    unary main_arg14 main_v30 (broadcastInDim S1x1 ![1] bcast_S1_S1x1_1),
    unary main_v30 main_v31 (broadcastInDim S50000x1 ![0, 1] bcast_S1x1_S50000x1_0_1),
    binary main_v29 main_v31 main_v32 addf ]

abbrev ops0d_W : List (Ref sig .tc) := [main_v24, main_v25, main_v26, main_v27, main_call2_v0, main_call2_v1, main_call2_cst, main_call2_v2, main_call2_v3, main_call2_cst_0, main_call2_v4, main_call2_v5, main_v28, main_v29, main_v30, main_v31, main_v32]

def ops0e : List (HloOp τ sig (Elt F)) :=
  [ binary main_arg0 main_arg15 main_v33 (fun l r => Host.dotGeneral dot_S50000x128_S128x128_S50000x128_1_0_0_1_n_n none l r),
    unary main_arg16 main_v34 (broadcastInDim S1x128 ![1] bcast_S128_S1x128_1),
    unary main_v34 main_v35 (broadcastInDim S50000x128 ![0, 1] bcast_S1x128_S50000x128_0_1),
    binary main_v33 main_v35 main_v36 addf,
    TRef.unary (.of main_v36) main_call3.v0 Host.negf,
    TRef.unary main_call3.v0 main_call3.v1 Host.exp,
    TRef.nullary main_call3.cst (constant S_ .f32 0x3F800000#32),
    TRef.unary main_call3.cst main_call3.v2 (broadcastInDim S50000x128 ![] bcast_S_S50000x128),
    TRef.binary main_call3.v2 main_call3.v1 main_call3.v3 addf,
    TRef.nullary main_call3.cst_0 (constant S_ .f32 0x3F800000#32),
    TRef.unary main_call3.cst_0 main_call3.v4 (broadcastInDim S50000x128 ![] bcast_S_S50000x128),
    TRef.binary main_call3.v4 main_call3.v3 main_call3.v5 Host.divf,
    TRef.binary (.of main_v36) main_call3.v5 main_call3.v6 mulf,
    binary main_v37 main_arg17 main_v38 (fun l r => Host.dotGeneral dot_S50000x128_S128x3_S50000x3_1_0_0_1_n_n none l r),
    unary main_arg18 main_v39 (broadcastInDim S1x3 ![1] bcast_S3_S1x3_1),
    unary main_v39 main_v40 (broadcastInDim S50000x3 ![0, 1] bcast_S1x3_S50000x3_0_1),
    binary main_v38 main_v40 main_v41 addf ]

abbrev ops0e_W : List (Ref sig .tc) := [main_v33, main_v34, main_v35, main_v36, main_call3_v0, main_call3_v1, main_call3_cst, main_call3_v2, main_call3_v3, main_call3_cst_0, main_call3_v4, main_call3_v5, main_v37, main_v38, main_v39, main_v40, main_v41]

def ops0f : List (HloOp τ sig (Elt F)) :=
  [ nullary main_c_11 (constantI S_ 32 0#32),
    unary main_c_11 main_v42 (broadcastInDim S500000 ![] bcast_S_S500000),
    binary main_v1 main_v42 main_v43 (cmpi .slt),
    nullary main_c_12 (constantI S_ 32 50000#32),
    unary main_c_12 main_v44 (broadcastInDim S500000 ![] bcast_S_S500000),
    binary main_v1 main_v44 main_v45 addi ]

abbrev ops0f_W : List (Ref sig .tc) := [main_c_11, main_v42, main_v43, main_c_12, main_v44, main_v45]

def ops1a : List (HloOp τ sig (Elt F)) :=
  [ ternary main_v43 main_v45 main_v1 main_v46 select,
    unary main_v46 main_v47 (broadcastInDim S500000x1 ![0] bcast_S500000_S500000x1_0),
    binary main_arg0 main_v47 main_v48 (fun x i => Host.gather gather_S50000x128_S500000x1_S500000x128_1_0_n_n_0_1_1128 x i),
    nullary main_c_13 (constantI S_ 32 0#32),
    unary main_c_13 main_v49 (broadcastInDim S500000 ![] bcast_S_S500000),
    binary main_v3 main_v49 main_v50 (cmpi .slt),
    nullary main_c_14 (constantI S_ 32 50000#32),
    unary main_c_14 main_v51 (broadcastInDim S500000 ![] bcast_S_S500000),
    binary main_v3 main_v51 main_v52 addi,
    ternary main_v50 main_v52 main_v3 main_v53 select,
    unary main_v53 main_v54 (broadcastInDim S500000x1 ![0] bcast_S500000_S500000x1_0),
    binary main_arg0 main_v54 main_v55 (fun x i => Host.gather gather_S50000x128_S500000x1_S500000x128_1_0_n_n_0_1_1128 x i) ]

abbrev ops1a_W : List (Ref sig .tc) := [main_v46, main_v47, main_v48, main_c_13, main_v49, main_v50, main_c_14, main_v51, main_v52, main_v53, main_v54, main_v55]

def ops1b : List (HloOp τ sig (Elt F)) :=
  [ nary ![main_arg2, main_v48, main_v55] main_v56 (fun u => concatenate S500000x384 1 [⟨S500000x128, u 0⟩, ⟨S500000x128, u 1⟩, ⟨S500000x128, u 2⟩] concatenates_S500000x128_S500000x128_S500000x128_S500000x384_d1),
    binary main_v56 main_arg19 main_v57 (fun l r => Host.dotGeneral dot_S500000x384_S384x128_S500000x128_1_0_0_1_n_n none l r),
    unary main_arg20 main_v58 (broadcastInDim S1x128 ![1] bcast_S128_S1x128_1),
    unary main_v58 main_v59 (broadcastInDim S500000x128 ![0, 1] bcast_S1x128_S500000x128_0_1),
    binary main_v57 main_v59 main_v60 addf,
    TRef.unary (.of main_v60) main_call4.v0 Host.negf,
    TRef.unary main_call4.v0 main_call4.v1 Host.exp,
    TRef.nullary main_call4.cst (constant S_ .f32 0x3F800000#32),
    TRef.unary main_call4.cst main_call4.v2 (broadcastInDim S500000x128 ![] bcast_S_S500000x128),
    TRef.binary main_call4.v2 main_call4.v1 main_call4.v3 addf,
    TRef.nullary main_call4.cst_0 (constant S_ .f32 0x3F800000#32),
    TRef.unary main_call4.cst_0 main_call4.v4 (broadcastInDim S500000x128 ![] bcast_S_S500000x128),
    TRef.binary main_call4.v4 main_call4.v3 main_call4.v5 Host.divf,
    TRef.binary (.of main_v60) main_call4.v5 main_call4.v6 mulf,
    binary main_v61 main_arg21 main_v62 (fun l r => Host.dotGeneral dot_S500000x128_S128x1_S500000x1_1_0_0_1_n_n none l r),
    unary main_arg22 main_v63 (broadcastInDim S1x1 ![1] bcast_S1_S1x1_1),
    unary main_v63 main_v64 (broadcastInDim S500000x1 ![0, 1] bcast_S1x1_S500000x1_0_1),
    binary main_v62 main_v64 main_v65 addf ]

abbrev ops1b_W : List (Ref sig .tc) := [main_v56, main_v57, main_v58, main_v59, main_v60, main_call4_v0, main_call4_v1, main_call4_cst, main_call4_v2, main_call4_v3, main_call4_cst_0, main_call4_v4, main_call4_v5, main_v61, main_v62, main_v63, main_v64, main_v65]

def ops1c : List (HloOp τ sig (Elt F)) :=
  [ binary main_v56 main_arg23 main_v66 (fun l r => Host.dotGeneral dot_S500000x384_S384x128_S500000x128_1_0_0_1_n_n none l r),
    unary main_arg24 main_v67 (broadcastInDim S1x128 ![1] bcast_S128_S1x128_1),
    unary main_v67 main_v68 (broadcastInDim S500000x128 ![0, 1] bcast_S1x128_S500000x128_0_1),
    binary main_v66 main_v68 main_v69 addf,
    TRef.unary (.of main_v69) main_call5.v0 Host.negf,
    TRef.unary main_call5.v0 main_call5.v1 Host.exp,
    TRef.nullary main_call5.cst (constant S_ .f32 0x3F800000#32),
    TRef.unary main_call5.cst main_call5.v2 (broadcastInDim S500000x128 ![] bcast_S_S500000x128),
    TRef.binary main_call5.v2 main_call5.v1 main_call5.v3 addf,
    TRef.nullary main_call5.cst_0 (constant S_ .f32 0x3F800000#32),
    TRef.unary main_call5.cst_0 main_call5.v4 (broadcastInDim S500000x128 ![] bcast_S_S500000x128),
    TRef.binary main_call5.v4 main_call5.v3 main_call5.v5 Host.divf,
    TRef.binary (.of main_v69) main_call5.v5 main_call5.v6 mulf,
    binary main_v70 main_arg25 main_v71 (fun l r => Host.dotGeneral dot_S500000x128_S128x3_S500000x3_1_0_0_1_n_n none l r),
    unary main_arg26 main_v72 (broadcastInDim S1x3 ![1] bcast_S3_S1x3_1),
    unary main_v72 main_v73 (broadcastInDim S500000x3 ![0, 1] bcast_S1x3_S500000x3_0_1),
    binary main_v71 main_v73 main_v74 addf ]

abbrev ops1c_W : List (Ref sig .tc) := [main_v66, main_v67, main_v68, main_v69, main_call5_v0, main_call5_v1, main_call5_cst, main_call5_v2, main_call5_v3, main_call5_cst_0, main_call5_v4, main_call5_v5, main_v70, main_v71, main_v72, main_v73, main_v74]

def ops1d : List (HloOp τ sig (Elt F)) :=
  [ nullary main_cst (constant S_ .f32 0x00000000#32),
    unary main_cst main_v75 (broadcastInDim S50000x2x2 ![] bcast_S_S50000x2x2),
    nullary main_c_15 (constantI S_ 32 2#32),
    unary main_c_15 main_v76 (broadcastInDim S1 ![] bcast_S_S1),
    binary main_c main_v76 main_v77 addi,
    ternary main_c_0 main_v77 main_c main_v78 select,
    nullary main_c_16 (constantI S_ 32 2#32),
    unary main_c_16 main_v79 (broadcastInDim S1 ![] bcast_S_S1),
    binary main_c_1 main_v79 main_v80 addi,
    ternary main_c_2 main_v80 main_c_1 main_v81 select,
    unary main_v78 main_v82 (broadcastInDim S1x1 ![0] bcast_S1_S1x1_0),
    unary main_v81 main_v83 (broadcastInDim S1x1 ![0] bcast_S1_S1x1_0),
    binary main_v82 main_v83 main_v84 (fun a b => concatenate S1x2 1 [⟨S1x1, a⟩, ⟨S1x1, b⟩] concatenates_S1x1_S1x1_S1x2_d1),
    ternary main_v75 main_v84 main_v32 main_v85 (fun x i u => Host.scatter scatter_S50000x2x2_S1x2_S50000x1_0_12_12_1 (fun _ b => b) x i u),
    unary main_v85 main_v86 (transpose S50000x2x2 [0, 2, 1] · transposes_S50000x2x2_S50000x2x2_0_2_1),
    binary main_v85 main_v86 main_v87 subf ]

abbrev ops1d_W : List (Ref sig .tc) := [main_cst, main_v75, main_c_15, main_v76, main_v77, main_v78, main_c_16, main_v79, main_v80, main_v81, main_v82, main_v83, main_v84, main_v85, main_v86, main_v87]

def ops1e : List (HloOp τ sig (Elt F)) :=
  [ nullary main_cst_17 (constant S_ .f32 0x00000000#32),
    unary main_cst_17 main_v88 (broadcastInDim S50000x2x2 ![] bcast_S_S50000x2x2),
    nullary main_c_18 (constantI S_ 32 2#32),
    unary main_c_18 main_v89 (broadcastInDim S3 ![] bcast_S_S3),
    binary main_c_3 main_v89 main_v90 addi,
    ternary main_c_4 main_v90 main_c_3 main_v91 select,
    nullary main_c_19 (constantI S_ 32 2#32),
    unary main_c_19 main_v92 (broadcastInDim S3 ![] bcast_S_S3),
    binary main_c_5 main_v92 main_v93 addi,
    ternary main_c_6 main_v93 main_c_5 main_v94 select,
    unary main_v91 main_v95 (broadcastInDim S3x1 ![0] bcast_S3_S3x1_0),
    unary main_v94 main_v96 (broadcastInDim S3x1 ![0] bcast_S3_S3x1_0),
    binary main_v95 main_v96 main_v97 (fun a b => concatenate S3x2 1 [⟨S3x1, a⟩, ⟨S3x1, b⟩] concatenates_S3x1_S3x1_S3x2_d1) ]

abbrev ops1e_W : List (Ref sig .tc) := [main_cst_17, main_v88, main_c_18, main_v89, main_v90, main_v91, main_c_19, main_v92, main_v93, main_v94, main_v95, main_v96, main_v97]

def ops2a : List (HloOp τ sig (Elt F)) :=
  [ ternary main_v88 main_v97 main_v41 main_v98 (fun x i u => Host.scatter scatter_S50000x2x2_S3x2_S50000x3_0_12_12_1 (fun _ b => b) x i u),
    binary main_v98 main_v98 main_v99 (fun l r => Host.dotGeneral dot_S50000x2x2_S50000x2x2_S50000x2x2_2_2_1_1_0_0 none l r) ]

abbrev ops2a_W : List (Ref sig .tc) := [main_v98, main_v99]

def ops2b : List (HloOp τ sig (Elt F)) :=
  [ nullary main_cst_20 (constant S_ .f32 0x00000000#32),
    unary main_cst_20 main_v100 (broadcastInDim S500000x2x2 ![] bcast_S_S500000x2x2),
    nullary main_c_21 (constantI S_ 32 2#32),
    unary main_c_21 main_v101 (broadcastInDim S1 ![] bcast_S_S1),
    binary main_c main_v101 main_v102 addi,
    ternary main_c_7 main_v102 main_c main_v103 select,
    nullary main_c_22 (constantI S_ 32 2#32),
    unary main_c_22 main_v104 (broadcastInDim S1 ![] bcast_S_S1),
    binary main_c_1 main_v104 main_v105 addi,
    ternary main_c_8 main_v105 main_c_1 main_v106 select,
    unary main_v103 main_v107 (broadcastInDim S1x1 ![0] bcast_S1_S1x1_0),
    unary main_v106 main_v108 (broadcastInDim S1x1 ![0] bcast_S1_S1x1_0),
    binary main_v107 main_v108 main_v109 (fun a b => concatenate S1x2 1 [⟨S1x1, a⟩, ⟨S1x1, b⟩] concatenates_S1x1_S1x1_S1x2_d1),
    ternary main_v100 main_v109 main_v65 main_v110 (fun x i u => Host.scatter scatter_S500000x2x2_S1x2_S500000x1_0_12_12_1 (fun _ b => b) x i u),
    unary main_v110 main_v111 (transpose S500000x2x2 [0, 2, 1] · transposes_S500000x2x2_S500000x2x2_0_2_1),
    binary main_v110 main_v111 main_v112 subf ]

abbrev ops2b_W : List (Ref sig .tc) := [main_cst_20, main_v100, main_c_21, main_v101, main_v102, main_v103, main_c_22, main_v104, main_v105, main_v106, main_v107, main_v108, main_v109, main_v110, main_v111, main_v112]

def ops2c : List (HloOp τ sig (Elt F)) :=
  [ nullary main_cst_23 (constant S_ .f32 0x00000000#32),
    unary main_cst_23 main_v113 (broadcastInDim S500000x2x2 ![] bcast_S_S500000x2x2),
    nullary main_c_24 (constantI S_ 32 2#32),
    unary main_c_24 main_v114 (broadcastInDim S3 ![] bcast_S_S3),
    binary main_c_3 main_v114 main_v115 addi,
    ternary main_c_9 main_v115 main_c_3 main_v116 select,
    nullary main_c_25 (constantI S_ 32 2#32),
    unary main_c_25 main_v117 (broadcastInDim S3 ![] bcast_S_S3),
    binary main_c_5 main_v117 main_v118 addi,
    ternary main_c_10 main_v118 main_c_5 main_v119 select,
    unary main_v116 main_v120 (broadcastInDim S3x1 ![0] bcast_S3_S3x1_0),
    unary main_v119 main_v121 (broadcastInDim S3x1 ![0] bcast_S3_S3x1_0),
    binary main_v120 main_v121 main_v122 (fun a b => concatenate S3x2 1 [⟨S3x1, a⟩, ⟨S3x1, b⟩] concatenates_S3x1_S3x1_S3x2_d1),
    ternary main_v113 main_v122 main_v74 main_v123 (fun x i u => Host.scatter scatter_S500000x2x2_S3x2_S500000x3_0_12_12_1 (fun _ b => b) x i u),
    binary main_v123 main_v123 main_v124 (fun l r => Host.dotGeneral dot_S500000x2x2_S500000x2x2_S500000x2x2_2_2_1_1_0_0 none l r) ]

abbrev ops2c_W : List (Ref sig .tc) := [main_cst_23, main_v113, main_c_24, main_v114, main_v115, main_v116, main_c_25, main_v117, main_v118, main_v119, main_v120, main_v121, main_v122, main_v123, main_v124]

def ops2d : List (HloOp τ sig (Elt F)) :=
  [ binary main_v87 main_v13 main_v125 (fun l r => Host.dotGeneral dot_S50000x2x2_S50000x2x1_S50000x2x1_2_1_1_2_0_0 none l r),
    binary main_v99 main_v23 main_v126 (fun l r => Host.dotGeneral dot_S50000x2x2_S50000x2x1_S50000x2x1_2_1_1_2_0_0 none l r),
    binary main_v125 main_v126 main_v127 addf,
    nullary main_c_26 (constantI S_ 32 0#32),
    unary main_c_26 main_v128 (broadcastInDim S500000 ![] bcast_S_S500000),
    binary main_v1 main_v128 main_v129 (cmpi .slt),
    nullary main_c_27 (constantI S_ 32 50000#32),
    unary main_c_27 main_v130 (broadcastInDim S500000 ![] bcast_S_S500000),
    binary main_v1 main_v130 main_v131 addi,
    ternary main_v129 main_v131 main_v1 main_v132 select,
    unary main_v132 main_v133 (broadcastInDim S500000x1 ![0] bcast_S500000_S500000x1_0),
    binary main_v13 main_v133 main_v134 (fun x i => Host.gather gather_S50000x2x1_S500000x1_S500000x2x1_12_0_n_n_0_1_121 x i),
    binary main_v112 main_v134 main_v135 (fun l r => Host.dotGeneral dot_S500000x2x2_S500000x2x1_S500000x2x1_2_1_1_2_0_0 none l r) ]

abbrev ops2d_W : List (Ref sig .tc) := [main_v125, main_v126, main_v127, main_c_26, main_v128, main_v129, main_c_27, main_v130, main_v131, main_v132, main_v133, main_v134, main_v135]

def ops2e : List (HloOp τ sig (Elt F)) :=
  [ nullary main_c_28 (constantI S_ 32 0#32),
    unary main_c_28 main_v136 (broadcastInDim S500000 ![] bcast_S_S500000),
    binary main_v1 main_v136 main_v137 (cmpi .slt),
    nullary main_c_29 (constantI S_ 32 50000#32),
    unary main_c_29 main_v138 (broadcastInDim S500000 ![] bcast_S_S500000),
    binary main_v1 main_v138 main_v139 addi,
    ternary main_v137 main_v139 main_v1 main_v140 select,
    unary main_v140 main_v141 (broadcastInDim S500000x1 ![0] bcast_S500000_S500000x1_0),
    binary main_v23 main_v141 main_v142 (fun x i => Host.gather gather_S50000x2x1_S500000x1_S500000x2x1_12_0_n_n_0_1_121 x i),
    binary main_v124 main_v142 main_v143 (fun l r => Host.dotGeneral dot_S500000x2x2_S500000x2x1_S500000x2x1_2_1_1_2_0_0 none l r),
    binary main_v135 main_v143 main_v144 addf,
    reshape main_v127 main_v145 rfl shapeCasts_S50000x2x1_S50000x2,
    reshape main_v144 main_v146 rfl shapeCasts_S500000x2x1_S500000x2,
    nullary main_cst_30 (constant S_ .f32 0x00000000#32) ]

abbrev ops2e_W : List (Ref sig .tc) := [main_c_28, main_v136, main_v137, main_c_29, main_v138, main_v139, main_v140, main_v141, main_v142, main_v143, main_v144, main_v145, main_v146, main_cst_30]

def ops3a : List (HloOp τ sig (Elt F)) :=
  [ unary main_cst_30 main_v147 (broadcastInDim S50000x2 ![] bcast_S_S50000x2),
    unary main_v3 main_v148 (broadcastInDim S500000x1 ![0] bcast_S500000_S500000x1_0),
    ternary main_v147 main_v148 main_v146 main_v149 (fun x i u => Host.scatterAdd scatter_S50000x2_S500000x1_S500000x2_1_0_0_1 x i u),
    binary main_v145 main_v149 main_v150 subf,
    binary main_v99 main_v13 main_v151 (fun l r => Host.dotGeneral dot_S50000x2x2_S50000x2x1_S50000x2x1_2_1_1_2_0_0 none l r),
    binary main_v87 main_v23 main_v152 (fun l r => Host.dotGeneral dot_S50000x2x2_S50000x2x1_S50000x2x1_2_1_1_2_0_0 none l r) ]

abbrev ops3a_W : List (Ref sig .tc) := [main_v147, main_v148, main_v149, main_v150, main_v151, main_v152]

abbrev opsP0 : List (HloOp τ sig (Elt F)) := ops0a ++ ops0b ++ ops0c ++ ops0d ++ ops0e ++ ops0f

abbrev opsP1 : List (HloOp τ sig (Elt F)) := ops1a ++ ops1b ++ ops1c ++ ops1d ++ ops1e

abbrev opsP2 : List (HloOp τ sig (Elt F)) := ops2a ++ ops2b ++ ops2c ++ ops2d ++ ops2e

abbrev opsP3 : List (HloOp τ sig (Elt F)) := ops3a

abbrev ops : List (HloOp τ sig (Elt F)) := opsP0 ++ opsP1 ++ opsP2 ++ opsP3

theorem main_part0_eq (c : Dev nD) : main_part0 (F := F) c = seq opsP0 := by
  simp only [main_part0, fn_silu.body, fn_silu_0.body, seq, bind_assoc, pure_bind]
  rfl

theorem main_part1_eq (c : Dev nD) : main_part1 (F := F) c = seq opsP1 := by
  simp only [main_part1, fn_silu.body, fn_silu_0.body, seq, bind_assoc, pure_bind]
  rfl

theorem main_part2_eq (c : Dev nD) : main_part2 (F := F) c = seq opsP2 := by
  simp only [main_part2, fn_silu.body, fn_silu_0.body, seq, bind_assoc, pure_bind]
  rfl

theorem main_part3_eq (c : Dev nD) : main_part3 (F := F) c = seq opsP3 := by
  simp only [main_part3, fn_silu.body, fn_silu_0.body, seq, bind_assoc, pure_bind]
  rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

abbrev Sets (op : HloOp τ sig (Elt F)) (y : Ref sig .tc) : Prop :=
  (op.bufs ⊆ tcRefs τ sig ∧ op.fresh = ∅) ∧ op.writes = {Proc.devRef .tc y}

-- A reference that is not among the results of a line keeps its contents across it.
theorem keep {l : List (HloOp τ sig (Elt F))} {W : List (Ref sig .tc)} (h : List.Forall₂ Sets l W)
    (V : Valuation τ sig (Elt F)) {r : Ref sig .tc} (hr : r ∉ W) :
    after l V (Proc.devRef .tc r) = V (Proc.devRef .tc r) := by
  induction h generalizing V with
  | nil => rfl
  | @cons op y _ _ h _ ih =>
    have hy : Proc.devRef (τ := τ) .tc r ∉ op.writes := by
      rw [h.2, Finset.mem_singleton]
      exact devRef_ne_of_ne fun e => hr (List.mem_cons.mpr (Or.inl e))
    rw [after_cons, ih _ fun h' => hr (List.mem_cons_of_mem _ h'), op.result_of_not_mem V hy]

abbrev chunks : List (List (HloOp τ sig (Elt F))) := [ops0a, ops0b, ops0c, ops0d, ops0e, ops0f, ops1a, ops1b, ops1c, ops1d, ops1e, ops2a, ops2b, ops2c, ops2d, ops2e, ops3a]

abbrev chunksW : List (List (Ref sig .tc)) := [ops0a_W, ops0b_W, ops0c_W, ops0d_W, ops0e_W, ops0f_W, ops1a_W, ops1b_W, ops1c_W, ops1d_W, ops1e_W, ops2a_W, ops2b_W, ops2c_W, ops2d_W, ops2e_W, ops3a_W]

theorem chunks_ok : List.Forall₂ (List.Forall₂ Sets) (chunks (F := F)) chunksW := by
  repeat' constructor
  all_goals simp only [nullary_bufs_sub, unary_bufs_sub, binary_bufs_sub, ternary_bufs_sub, reshape_bufs_sub, nary_bufs_sub]

theorem ops_ok : List.Forall₂ Sets (ops (F := F)) chunksW.flatten := List.rel_flatten chunks_ok

theorem run (m : (ℓ : Loc nD τ sig) → Buf (Elt F) ℓ) (ρ : Dev nD → PrngReg) :
    θ_run defs (onTc (τ := τ) (main (F := F))) ⟨m, fun _ => 0, ρ⟩ (fun r => ∀ (d : Dev nD) (b : Ref sig .tc),
      r.2.mem ((d.tc : Thread nD τ).loc b) = after ops (launchContents m d) (Proc.devRef .tc b)) :=
  have h := ((List.forall₂_and_left _ _).mp ops_ok).1
  run_seq scopedRefs_eq scopedSems_eq defs main (fun _ => ops) main_eq
    (fun _ => List.forall_iff_forall_mem.mpr fun op ho => (h op ho).1) m ρ fun _ op ho => (h op ho).2

theorem chunk_keep (i : Fin 17) (V : Valuation τ sig (Elt F)) {r : Ref sig .tc} (h : r ∉ chunksW.get i) :
    after (chunks.get i) V (Proc.devRef .tc r) = V (Proc.devRef .tc r) :=
  keep (chunks_ok.get i.2 i.2) V h

abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

theorem ops_arg (V : Valuation τ sig (Elt F)) {r : Ref sig .tc} (h : r ∈ argsL) :
    after ops V (Proc.devRef .tc r) = V (Proc.devRef .tc r) :=
  keep ops_ok V ((by decide : ∀ r ∈ argsL, r ∉ (chunksW.flatten : List (Ref sig .tc))) r h)

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      List.Forall (fun b => r.2.mem ((c.tc : Thread nD τ).loc b) = m ((c.tc : Thread nD τ).loc b)) argsL) :=
  (θ_run defs _ _).mono (fun _ h c => List.forall_iff_forall_mem.mpr fun b hb => (h c b).trans (ops_arg _ hb)) (run m ρ)

end Cert.ReferenceIdeal.Ops

end
-- ==== Proof.RefMatE.lean ====
import proofs.«406161_j39298950758847_3_alg».proof.Proof.Gen.ReferenceIdeal
import proofs.«406161_j39298950758847_3_alg».proof.Proof.Spec
import Idealize.ShloMosaic.Lib.ValueIdx
import Idealize.ShloMosaic.Lib.ValueLayout
import Idealize.ShloMosaic.Lib.StackMember
import Idealize.ShloMosaic.PureOps.Ideal.Laws

noncomputable section

open scoped BigOperators

namespace Cert.ReferenceIdeal.St

open Cert.ReferenceIdeal
open Cert.ReferenceIdeal.Facts₀ Cert.ReferenceIdeal.Facts
open Idealize.ShloMosaic Idealize.ShloMosaic.ValueIdx

variable {F : FTy → Type} [FloatOps F]

def idx109 : IVec S1x2 32 :=
  concatenate S1x2 1
    [⟨S1x1, broadcastInDim S1x1 ![0] bcast_S1_S1x1_0
        (select (constantI S1 1 0#1) (addi (constantI S1 32 1#32) (broadcastInDim S1 ![] bcast_S_S1 (constantI S_ 32 2#32))) (constantI S1 32 1#32))⟩,
     ⟨S1x1, broadcastInDim S1x1 ![0] bcast_S1_S1x1_0
        (select (constantI S1 1 0#1) (addi (constantI S1 32 0#32) (broadcastInDim S1 ![] bcast_S_S1 (constantI S_ 32 2#32))) (constantI S1 32 0#32))⟩]
    concatenates_S1x1_S1x1_S1x2_d1

def idx122 : IVec S3x2 32 :=
  concatenate S3x2 1
    [⟨S3x1, broadcastInDim S3x1 ![0] bcast_S3_S3x1_0
        (select (constantI S3 1 0#1) (addi (fun i => lit0 (S3.rowMajor i)) (broadcastInDim S3 ![] bcast_S_S3 (constantI S_ 32 2#32))) (fun i => lit0 (S3.rowMajor i)))⟩,
     ⟨S3x1, broadcastInDim S3x1 ![0] bcast_S3_S3x1_0
        (select (constantI S3 1 0#1) (addi (fun i => lit1 (S3.rowMajor i)) (broadcastInDim S3 ![] bcast_S_S3 (constantI S_ 32 2#32))) (fun i => lit1 (S3.rowMajor i)))⟩]
    concatenates_S3x1_S3x1_S3x2_d1

namespace Mat2

section Scatter
variable {α : Type} {s si u : Shape} {w : Nat}

def scatterStep (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem fold_miss (d : ScatterDims s si u) (f : α → α → α) (idx : IVec si w) (upd : u.Idx → α) (i0 : s.Idx)
    (L : List (Fin u.numel)) (h : ∀ n ∈ L, d.resultIdx? (u.rowMajor.symm n) idx ≠ some i0) (r : s.Idx → α) :
    (L.foldl (scatterStep d f idx upd) r) i0 = r i0 := by
  induction L generalizing r with
  | nil => rfl
  | cons n L ih =>
    rw [List.foldl_cons, ih (fun m hm => h m (List.mem_cons_of_mem _ hm))]
    unfold scatterStep
    cases hn : d.resultIdx? (u.rowMajor.symm n) idx with
    | none => rfl
    | some i => exact if_neg fun e => h n List.mem_cons_self (by rw [hn, e])

theorem scatter_miss (d : ScatterDims s si u) (f : α → α → α) (x : s.Idx → α) (idx : IVec si w) (upd : u.Idx → α) (i0 : s.Idx)
    (h : ∀ j, d.resultIdx? j idx ≠ some i0) : Host.scatter d f x idx upd i0 = x i0 :=
  fold_miss d f idx upd i0 _ (fun n _ => h _) x

-- Later updates all miss `i0`, so the value `j0` set there survives the rest of the fold.
theorem scatter_hit (d : ScatterDims s si u) (x : s.Idx → α) (idx : IVec si w) (upd : u.Idx → α) (j0 : u.Idx) (i0 : s.Idx)
    (h0 : d.resultIdx? j0 idx = some i0) (huniq : ∀ j, d.resultIdx? j idx = some i0 → j = j0) :
    Host.scatter d (fun _ b => b) x idx upd i0 = upd j0 := by
  show (List.finRange u.numel).foldl (scatterStep d (fun _ b => b) idx upd) x i0 = _
  obtain ⟨L1, L2, hL⟩ := List.append_of_mem (List.mem_finRange (u.rowMajor j0))
  have hnd : (L1 ++ u.rowMajor j0 :: L2).Nodup := hL ▸ List.nodup_finRange _
  have hnot : u.rowMajor j0 ∉ L2 := (List.nodup_cons.mp (List.nodup_append.mp hnd).2.1).1
  rw [hL, List.foldl_append, List.foldl_cons, fold_miss d _ idx upd i0 L2 (fun n hn hs => hnot (by
    rw [← huniq _ hs, Equiv.apply_symm_apply]; exact hn))]
  unfold scatterStep
  rw [Equiv.symm_apply_apply, h0]
  exact if_pos rfl

theorem resultIdx?_eq_some (d : ScatterDims s si u) (j : u.Idx) (idx : IVec si w) (r : s.Idx)
    (h : ∀ a, d.start j idx a + d.window j a = ((r a).val : Int)) : d.resultIdx? j idx = some r := by
  unfold ScatterDims.resultIdx?
  rw [dif_pos (fun a => by rw [h a]; exact ⟨Int.natCast_nonneg _, by exact_mod_cast (r a).isLt⟩)]
  congr 1
  funext a
  apply Fin.ext
  show (d.start j idx a + d.window j a).toNat = (r a).val
  rw [h a]; rfl

end Scatter

-- Both factors are contracted over their last axis, so entry (a, b) pairs row a of A with row b of B.
theorem dotGeneral_stackT_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  congr 2 <;> funext ax <;> apply Fin.ext <;> match ax with
    | ⟨0, _⟩ | ⟨1, _⟩ => rfl
    | ⟨2, _⟩ => first
      | exact (DotDims.lhsIdx_val_of_single _ rfl _ _).trans c3
      | exact (DotDims.rhsIdx_val_of_single _ rfl _ _).trans c3

variable {G : Nat} (hB : S_.BroadcastsInDim ⟨3, ![G, 2, 2]⟩ ![])

-- The zero [G, 2, 2] array with the updates `u` set in at the index pairs `idx`.
def scatG {K : Nat} {si : Shape} (wS : ScatterDims.WF ⟨3, ![G, 2, 2]⟩ si ⟨2, ![G, K]⟩ [0] [1, 2] [1, 2] 1) (idx : IVec si 32)
    (u : FVec F ⟨2, ![G, K]⟩ .f32) : FVec F ⟨3, ![G, 2, 2]⟩ .f32 :=
  Host.scatter ⟨[0], [1, 2], [1, 2], 1, wS⟩ (fun _ b => b)
    (broadcastInDim ⟨3, ![G, 2, 2]⟩ ![] hB (constant S_ .f32 0x00000000#32)) idx u

section Hit
variable {K : Nat} {si : Shape} (wS : ScatterDims.WF ⟨3, ![G, 2, 2]⟩ si ⟨2, ![G, K]⟩ [0] [1, 2] [1, 2] 1) (idx : IVec si 32)
  (u : FVec Ideal ⟨2, ![G, K]⟩ .f32) (r c : Fin K → Fin 2)
  (hres : ∀ g k, (⟨[0], [1, 2], [1, 2], 1, wS⟩ : ScatterDims _ _ _).resultIdx? (ix2 g k) idx = some (ix3 g (r k) (c k)))
include hres

-- If update (g, k) lands at (g, r k, c k) and (r, c) is one-to-one, that entry holds the update,
theorem scatG_hit (hinj : ∀ k k', r k' = r k → c k' = c k → k' = k) (g : Fin G) (k : Fin K) :
    scatG hB wS idx u (ix3 g (r k) (c k)) = u (ix2 g k) :=
  scatter_hit _ _ idx u (ix2 g k) _ (hres g k) fun j hj => by
    obtain ⟨g', k', rfl⟩ : ∃ (g' : Fin G) (k' : Fin K), j = ix2 g' k' := ⟨j 0, j 1, eq_ix2 j⟩
    rw [hres] at hj
    have h := Option.some.inj hj
    rw [show g' = g from congrFun h 0, hinj k k' (congrFun h 1) (congrFun h 2)]

-- and an entry no (r k, c k) names stays 0.
theorem scatG_miss (g : Fin G) (a b : Fin 2) (h : ∀ k, ¬(r k = a ∧ c k = b)) : scatG hB wS idx u (ix3 g a b) = 0 :=
  (scatter_miss _ _ _ idx u _ fun j hj => by
    obtain ⟨g', k', rfl⟩ : ∃ (g' : Fin G) (k' : Fin K), j = ix2 g' k' := ⟨j 0, j 1, eq_ix2 j⟩
    rw [hres] at hj
    have h' := Option.some.inj hj
    exact h k' ⟨congrFun h' 1, congrFun h' 2⟩).trans Ideal.ofBits_zero_f32

end Hit

variable (hT : (⟨3, ![G, 2, 2]⟩ : Shape).Transposes [0, 2, 1] ⟨3, ![G, 2, 2]⟩)
  (wV : DotDims.WF ⟨3, ![G, 2, 2]⟩ ⟨3, ![G, 2, 1]⟩ ⟨3, ![G, 2, 1]⟩ [2] [1] [1] [2] [0] [0])
  (wT : DotDims.WF ⟨3, ![G, 2, 2]⟩ ⟨3, ![G, 2, 2]⟩ ⟨3, ![G, 2, 2]⟩ [2] [2] [1] [1] [0] [0])
  (w1 : ScatterDims.WF ⟨3, ![G, 2, 2]⟩ S1x2 ⟨2, ![G, 1]⟩ [0] [1, 2] [1, 2] 1)
  (w3 : ScatterDims.WF ⟨3, ![G, 2, 2]⟩ S3x2 ⟨2, ![G, 3]⟩ [0] [1, 2] [1, 2] 1) (g : Fin G)

theorem res1 (k : Fin 1) :
    (⟨[0], [1, 2], [1, 2], 1, w1⟩ : ScatterDims _ _ _).resultIdx? (ix2 g k) idx109 = some (ix3 g 1 0) :=
  resultIdx?_eq_some _ _ idx109 _ fun a => match a with
    | ⟨0, _⟩ => (show (0 : Int) + (g.val : Int) = _ from Int.zero_add _)
    | ⟨1, _⟩ | ⟨2, _⟩ => rfl

theorem res3 (k : Fin 3) :
    (⟨[0], [1, 2], [1, 2], 1, w3⟩ : ScatterDims _ _ _).resultIdx? (ix2 g k) idx122
      = some (ix3 g (![0, 1, 1] k : Fin 2) (![0, 0, 1] k : Fin 2)) :=
  resultIdx?_eq_some _ _ idx122 _ fun a => match a with
    | ⟨0, _⟩ => (show (0 : Int) + (g.val : Int) = _ from Int.zero_add _)
    | ⟨1, _⟩ | ⟨2, _⟩ => match k with | ⟨0, _⟩ | ⟨1, _⟩ | ⟨2, _⟩ => rfl

theorem dotV_apply (A : FVec Ideal ⟨3, ![G, 2, 2]⟩ .f32) (v : FVec Ideal ⟨3, ![G, 2, 1]⟩ .f32) (i : Fin 2) :
    Host.dotGeneral (⟨[2], [1], [1], [2], [0], [0], wV⟩ : DotDims _ _ _) none A v (ix3 g i 0)
      = A (ix3 g i 0) * v (ix3 g 0 0) + A (ix3 g i 1) * v (ix3 g 1 0) :=
  (StackMember.dotGeneral_stack_apply wV none A v g i 0).trans (Fin.sum_univ_two _)

-- L = [[0, −l], [l, 0]] of every item: l set at (1, 0) of a zero matrix, minus the transpose.
def skewG (l : FVec F ⟨2, ![G, 1]⟩ .f32) : FVec F ⟨3, ![G, 2, 2]⟩ .f32 :=
  subf (scatG hB w1 idx109 l) (transpose ⟨3, ![G, 2, 2]⟩ [0, 2, 1] (scatG hB w1 idx109 l) hT)

-- M = T·Tᵀ of every item, T = [[m₀, 0], [m₁, m₂]].
def gramG (mm : FVec F ⟨2, ![G, 3]⟩ .f32) : FVec F ⟨3, ![G, 2, 2]⟩ .f32 :=
  Host.dotGeneral ⟨[2], [2], [1], [1], [0], [0], wT⟩ none (scatG hB w3 idx122 mm) (scatG hB w3 idx122 mm)

theorem LvG_apply (l : FVec Ideal ⟨2, ![G, 1]⟩ .f32) (v : FVec Ideal ⟨3, ![G, 2, 1]⟩ .f32) :
    Host.dotGeneral (⟨[2], [1], [1], [2], [0], [0], wV⟩ : DotDims _ _ _) none (skewG hB hT w1 l) v (ix3 g 0 0) = Cert.Spec.Lv0 (l (ix2 g 0)) (v (ix3 g 1 0))
    ∧ Host.dotGeneral (⟨[2], [1], [1], [2], [0], [0], wV⟩ : DotDims _ _ _) none (skewG hB hT w1 l) v (ix3 g 1 0) = Cert.Spec.Lv1 (l (ix2 g 0)) (v (ix3 g 0 0)) := by
  have hit := scatG_hit hB w1 idx109 l (fun _ => 1) (fun _ => 0) (res1 w1) (fun _ _ _ _ => Subsingleton.elim _ _) g 0
  have miss := scatG_miss hB w1 idx109 l (fun _ => 1) (fun _ => 0) (res1 w1) g
  unfold skewG Cert.Spec.Lv0 Cert.Spec.Lv1
  rw [dotV_apply, dotV_apply, subf_apply, subf_apply, subf_apply, subf_apply, transpose_ix3_021_apply,
    transpose_ix3_021_apply, transpose_ix3_021_apply, transpose_ix3_021_apply, hit,
    miss 0 0 (by decide), miss 0 1 (by decide), miss 1 1 (by decide)]
  constructor
  · rw [sub_zero, zero_mul, zero_add]
  · rw [sub_zero, sub_zero, zero_mul, add_zero]

theorem MwG_apply (mm : FVec Ideal ⟨2, ![G, 3]⟩ .f32) (w : FVec Ideal ⟨3, ![G, 2, 1]⟩ .f32) :
    Host.dotGeneral (⟨[2], [1], [1], [2], [0], [0], wV⟩ : DotDims _ _ _) none (gramG hB wT w3 mm) w (ix3 g 0 0)
      = Cert.Spec.Mw0 (mm (ix2 g 0)) (mm (ix2 g 1)) (w (ix3 g 0 0)) (w (ix3 g 1 0))
    ∧ Host.dotGeneral (⟨[2], [1], [1], [2], [0], [0], wV⟩ : DotDims _ _ _) none (gramG hB wT w3 mm) w (ix3 g 1 0)
      = Cert.Spec.Mw1 (mm (ix2 g 0)) (mm (ix2 g 1)) (mm (ix2 g 2)) (w (ix3 g 0 0)) (w (ix3 g 1 0)) := by
  have hit := scatG_hit hB w3 idx122 mm ![0, 1, 1] ![0, 0, 1] (res3 w3) (by decide) g
  have h00 : scatG hB w3 idx122 mm (ix3 g 0 0) = _ := hit 0
  have h10 : scatG hB w3 idx122 mm (ix3 g 1 0) = _ := hit 1
  have h11 : scatG hB w3 idx122 mm (ix3 g 1 1) = _ := hit 2
  have h01 := scatG_miss hB w3 idx122 mm ![0, 1, 1] ![0, 0, 1] (res3 w3) g 0 1 (by decide)
  have dotT := fun a b => (dotGeneral_stackT_apply wT none (scatG hB w3 idx122 mm) (scatG hB w3 idx122 mm) g a b).trans (Fin.sum_univ_two _)
  unfold gramG Cert.Spec.Mw0 Cert.Spec.Mw1
  rw [dotV_apply, dotV_apply, dotT, dotT, dotT, dotT, h00, h10, h11, h01]
  constructor
  · rw [mul_zero, add_zero, zero_mul, add_zero]
  · rw [mul_zero, add_zero, mul_comm (mm (ix2 g 1)) (mm (ix2 g 0))]

end Mat2

def v112 (l : FVec F S500000x1 .f32) : FVec F S500000x2x2 .f32 :=
  Mat2.skewG bcast_S_S500000x2x2 transposes_S500000x2x2_S500000x2x2_0_2_1 scatter_S500000x2x2_S1x2_S500000x1_0_12_12_1_wf l

def v124 (mm : FVec F S500000x3 .f32) : FVec F S500000x2x2 .f32 :=
  Mat2.gramG bcast_S_S500000x2x2 dot_S500000x2x2_S500000x2x2_S500000x2x2_2_2_1_1_0_0_wf scatter_S500000x2x2_S3x2_S500000x3_0_12_12_1_wf mm

def v135 (l : FVec F S500000x1 .f32) (v : FVec F S500000x2x1 .f32) : FVec F S500000x2x1 .f32 :=
  Host.dotGeneral dot_S500000x2x2_S500000x2x1_S500000x2x1_2_1_1_2_0_0 none (v112 l) v

def v143 (mm : FVec F S500000x3 .f32) (w : FVec F S500000x2x1 .f32) : FVec F S500000x2x1 .f32 :=
  Host.dotGeneral dot_S500000x2x2_S500000x2x1_S500000x2x1_2_1_1_2_0_0 none (v124 mm) w

theorem v135_apply (l : FVec Ideal S500000x1 .f32) (v : FVec Ideal S500000x2x1 .f32) (e : Fin 500000) :
    v135 (F := Ideal) l v (ix3 e (0 : Fin 2) (0 : Fin 1)) = Cert.Spec.Lv0 (l (ix2 e (0 : Fin 1))) (v (ix3 e (1 : Fin 2) (0 : Fin 1)))
    ∧ v135 (F := Ideal) l v (ix3 e (1 : Fin 2) (0 : Fin 1)) = Cert.Spec.Lv1 (l (ix2 e (0 : Fin 1))) (v (ix3 e (0 : Fin 2) (0 : Fin 1))) :=
  Mat2.LvG_apply bcast_S_S500000x2x2 transposes_S500000x2x2_S500000x2x2_0_2_1 dot_S500000x2x2_S500000x2x1_S500000x2x1_2_1_1_2_0_0_wf
    scatter_S500000x2x2_S1x2_S500000x1_0_12_12_1_wf e l v

theorem v143_apply (mm : FVec Ideal S500000x3 .f32) (w : FVec Ideal S500000x2x1 .f32) (e : Fin 500000) :
    v143 (F := Ideal) mm w (ix3 e (0 : Fin 2) (0 : Fin 1))
      = Cert.Spec.Mw0 (mm (ix2 e (0 : Fin 3))) (mm (ix2 e (1 : Fin 3))) (w (ix3 e (0 : Fin 2) (0 : Fin 1))) (w (ix3 e (1 : Fin 2) (0 : Fin 1)))
    ∧ v143 (F := Ideal) mm w (ix3 e (1 : Fin 2) (0 : Fin 1))
      = Cert.Spec.Mw1 (mm (ix2 e (0 : Fin 3))) (mm (ix2 e (1 : Fin 3))) (mm (ix2 e (2 : Fin 3))) (w (ix3 e (0 : Fin 2) (0 : Fin 1))) (w (ix3 e (1 : Fin 2) (0 : Fin 1))) :=
  Mat2.MwG_apply bcast_S_S500000x2x2 dot_S500000x2x2_S500000x2x1_S500000x2x1_2_1_1_2_0_0_wf
    dot_S500000x2x2_S500000x2x2_S500000x2x2_2_2_1_1_0_0_wf scatter_S500000x2x2_S3x2_S500000x3_0_12_12_1_wf e mm w

end Cert.ReferenceIdeal.St

end
-- ==== Proof.RefMatN.lean ====
import proofs.«406161_j39298950758847_3_alg».proof.Proof.RefMatE
import Idealize.ShloMosaic.Lib.ValueLayout
import Idealize.ShloMosaic.Lib.IdealHost

noncomputable section

namespace Cert.ReferenceIdeal.St

open Cert.ReferenceIdeal Cert.ReferenceIdeal.Gen
open Idealize.ShloMosaic Idealize.ShloMosaic.ValueIdx

variable {F : FTy → Type} [FloatOps F]

def v87 (l : FVec F S50000x1 .f32) : FVec F S50000x2x2 .f32 :=
  Mat2.skewG bcast_S_S50000x2x2 transposes_S50000x2x2_S50000x2x2_0_2_1 scatter_S50000x2x2_S1x2_S50000x1_0_12_12_1_wf l

def v99 (mm : FVec F S50000x3 .f32) : FVec F S50000x2x2 .f32 :=
  Mat2.gramG bcast_S_S50000x2x2 dot_S50000x2x2_S50000x2x2_S50000x2x2_2_2_1_1_0_0_wf scatter_S50000x2x2_S3x2_S50000x3_0_12_12_1_wf mm

def LvN (l : FVec F S50000x1 .f32) (v : FVec F S50000x2x1 .f32) : FVec F S50000x2x1 .f32 :=
  Host.dotGeneral dot_S50000x2x2_S50000x2x1_S50000x2x1_2_1_1_2_0_0 none (v87 l) v

def MwN (mm : FVec F S50000x3 .f32) (w : FVec F S50000x2x1 .f32) : FVec F S50000x2x1 .f32 :=
  Host.dotGeneral dot_S50000x2x2_S50000x2x1_S50000x2x1_2_1_1_2_0_0 none (v99 mm) w

theorem LvN_apply (l : FVec Ideal S50000x1 .f32) (v : FVec Ideal S50000x2x1 .f32) (n : Fin 50000) :
    LvN (F := Ideal) l v (ix3 n (0 : Fin 2) (0 : Fin 1)) = Cert.Spec.Lv0 (l (ix2 n (0 : Fin 1))) (v (ix3 n (1 : Fin 2) (0 : Fin 1)))
    ∧ LvN (F := Ideal) l v (ix3 n (1 : Fin 2) (0 : Fin 1)) = Cert.Spec.Lv1 (l (ix2 n (0 : Fin 1))) (v (ix3 n (0 : Fin 2) (0 : Fin 1))) :=
  Mat2.LvG_apply bcast_S_S50000x2x2 transposes_S50000x2x2_S50000x2x2_0_2_1 dot_S50000x2x2_S50000x2x1_S50000x2x1_2_1_1_2_0_0_wf
    scatter_S50000x2x2_S1x2_S50000x1_0_12_12_1_wf n l v

theorem MwN_apply (mm : FVec Ideal S50000x3 .f32) (w : FVec Ideal S50000x2x1 .f32) (n : Fin 50000) :
    MwN (F := Ideal) mm w (ix3 n (0 : Fin 2) (0 : Fin 1))
      = Cert.Spec.Mw0 (mm (ix2 n (0 : Fin 3))) (mm (ix2 n (1 : Fin 3))) (w (ix3 n (0 : Fin 2) (0 : Fin 1))) (w (ix3 n (1 : Fin 2) (0 : Fin 1)))
    ∧ MwN (F := Ideal) mm w (ix3 n (1 : Fin 2) (0 : Fin 1))
      = Cert.Spec.Mw1 (mm (ix2 n (0 : Fin 3))) (mm (ix2 n (1 : Fin 3))) (mm (ix2 n (2 : Fin 3))) (w (ix3 n (0 : Fin 2) (0 : Fin 1))) (w (ix3 n (1 : Fin 2) (0 : Fin 1))) :=
  Mat2.MwG_apply bcast_S_S50000x2x2 dot_S50000x2x2_S50000x2x1_S50000x2x1_2_1_1_2_0_0_wf
    dot_S50000x2x2_S50000x2x2_S50000x2x2_2_2_1_1_0_0_wf scatter_S50000x2x2_S3x2_S50000x3_0_12_12_1_wf n mm w

end Cert.ReferenceIdeal.St

end
-- ==== Proof.RefStN.lean ====
import proofs.«406161_j39298950758847_3_alg».proof.Proof.Gen.ReferenceIdeal
import proofs.«406161_j39298950758847_3_alg».proof.Proof.RefMatN

noncomputable section

namespace Cert.ReferenceIdeal.St

open Idealize.ShloMosaic
open Cert.ReferenceIdeal Cert.ReferenceIdeal.Facts₀

variable {F : FTy → Type} [FloatOps F]

def siluN (z : FVec F S50000x128 .f32) : FVec F S50000x128 .f32 :=
  mulf z
    (Host.divf (broadcastInDim S50000x128 ![] bcast_S_S50000x128 (constant S_ .f32 0x3F800000#32))
      (addf (broadcastInDim S50000x128 ![] bcast_S_S50000x128 (constant S_ .f32 0x3F800000#32))
        (Host.exp (Host.negf z))))

def preN (x : FVec F S50000x128 .f32) (W1 : FVec F S128x128 .f32) (b1 : FVec F S128 .f32) :
    FVec F S50000x128 .f32 :=
  addf (Host.dotGeneral dot_S50000x128_S128x128_S50000x128_1_0_0_1_n_n none x W1)
    (broadcastInDim S50000x128 ![0, 1] bcast_S1x128_S50000x128_0_1
      (broadcastInDim S1x128 ![1] bcast_S128_S1x128_1 b1))

def hidN (x : FVec F S50000x128 .f32) (W1 : FVec F S128x128 .f32) (b1 : FVec F S128 .f32) :
    FVec F S50000x128 .f32 :=
  siluN (preN x W1 b1)

def v12 (x : FVec F S50000x128 .f32) (W1 : FVec F S128x128 .f32) (b1 : FVec F S128 .f32)
    (W2 : FVec F S128x2 .f32) (b2 : FVec F S2 .f32) : FVec F S50000x2 .f32 :=
  addf (Host.dotGeneral dot_S50000x128_S128x2_S50000x2_1_0_0_1_n_n none (hidN x W1 b1) W2)
    (broadcastInDim S50000x2 ![0, 1] bcast_S1x2_S50000x2_0_1
      (broadcastInDim S1x2 ![1] bcast_S2_S1x2_1 b2))

def v13 (d : FVec F S50000x2 .f32) : FVec F S50000x2x1 .f32 :=
  broadcastInDim S50000x2x1 ![0, 1] bcast_S50000x2_S50000x2x1_0_1 d

def v22 (x : FVec F S50000x128 .f32) (W1 : FVec F S128x128 .f32) (b1 : FVec F S128 .f32)
    (W2 : FVec F S128x2 .f32) (b2 : FVec F S2 .f32) : FVec F S50000x2 .f32 :=
  addf (Host.dotGeneral dot_S50000x128_S128x2_S50000x2_1_0_0_1_n_n none (hidN x W1 b1) W2)
    (broadcastInDim S50000x2 ![0, 1] bcast_S1x2_S50000x2_0_1
      (broadcastInDim S1x2 ![1] bcast_S2_S1x2_1 b2))

def v23 (d : FVec F S50000x2 .f32) : FVec F S50000x2x1 .f32 :=
  broadcastInDim S50000x2x1 ![0, 1] bcast_S50000x2_S50000x2x1_0_1 d

def v32 (x : FVec F S50000x128 .f32) (W1 : FVec F S128x128 .f32) (b1 : FVec F S128 .f32)
    (W2 : FVec F S128x1 .f32) (b2 : FVec F S1 .f32) : FVec F S50000x1 .f32 :=
  addf (Host.dotGeneral dot_S50000x128_S128x1_S50000x1_1_0_0_1_n_n none (hidN x W1 b1) W2)
    (broadcastInDim S50000x1 ![0, 1] bcast_S1x1_S50000x1_0_1
      (broadcastInDim S1x1 ![1] bcast_S1_S1x1_1 b2))

def v41 (x : FVec F S50000x128 .f32) (W1 : FVec F S128x128 .f32) (b1 : FVec F S128 .f32)
    (W2 : FVec F S128x3 .f32) (b2 : FVec F S3 .f32) : FVec F S50000x3 .f32 :=
  addf (Host.dotGeneral dot_S50000x128_S128x3_S50000x3_1_0_0_1_n_n none (hidN x W1 b1) W2)
    (broadcastInDim S50000x3 ![0, 1] bcast_S1x3_S50000x3_0_1
      (broadcastInDim S1x3 ![1] bcast_S3_S1x3_1 b2))

def v127 (l : FVec F S50000x1 .f32) (mm : FVec F S50000x3 .f32) (dE3 dS3 : FVec F S50000x2x1 .f32) :
    FVec F S50000x2x1 .f32 :=
  addf (LvN l dE3) (MwN mm dS3)

def v151 (mm : FVec F S50000x3 .f32) (dE3 : FVec F S50000x2x1 .f32) : FVec F S50000x2x1 .f32 := MwN mm dE3

def v152 (l : FVec F S50000x1 .f32) (dS3 : FVec F S50000x2x1 .f32) : FVec F S50000x2x1 .f32 := LvN l dS3

def v145 (t127 : FVec F S50000x2x1 .f32) : FVec F S50000x2 .f32 :=
  shapeCast S50000x2 t127 shapeCasts_S50000x2x1_S50000x2

end Cert.ReferenceIdeal.St

end
-- ==== Proof.RefStE.lean ====
import proofs.«406161_j39298950758847_3_alg».proof.Proof.Gen.ReferenceIdeal

noncomputable section

namespace Cert.ReferenceIdeal.St

open Idealize.ShloMosaic
open Cert.ReferenceIdeal Cert.ReferenceIdeal.Facts₀

variable {F : FTy → Type} [FloatOps F]

def siluE (z : FVec F S500000x128 .f32) : FVec F S500000x128 .f32 :=
  mulf z
    (Host.divf (broadcastInDim S500000x128 ![] bcast_S_S500000x128 (constant S_ .f32 0x3F800000#32))
      (addf (broadcastInDim S500000x128 ![] bcast_S_S500000x128 (constant S_ .f32 0x3F800000#32))
        (Host.exp (Host.negf z))))

def v0 (a1 : IVec S2x500000 32) : IVec S1x500000 32 :=
  extractStridedSlice S1x500000 ![0, 0] a1 slices_S2x500000_S1x500000_0_0

def v1 (a1 : IVec S2x500000 32) : IVec S500000 32 :=
  shapeCast S500000 (v0 a1) shapeCasts_S1x500000_S500000

def v2 (a1 : IVec S2x500000 32) : IVec S1x500000 32 :=
  extractStridedSlice S1x500000 ![1, 0] a1 slices_S2x500000_S1x500000_1_0

def v3 (a1 : IVec S2x500000 32) : IVec S500000 32 :=
  shapeCast S500000 (v2 a1) shapeCasts_S1x500000_S500000

def wrapIdx (i : IVec S500000 32) : IVec S500000 32 :=
  select (cmpi .slt i (broadcastInDim S500000 ![] bcast_S_S500000 (constantI S_ 32 0#32)))
    (addi i (broadcastInDim S500000 ![] bcast_S_S500000 (constantI S_ 32 50000#32)))
    i

def v46 (a1 : IVec S2x500000 32) : IVec S500000 32 := wrapIdx (v1 a1)

def v53 (a1 : IVec S2x500000 32) : IVec S500000 32 := wrapIdx (v3 a1)

def sIdx (a1 : IVec S2x500000 32) : IVec S500000x1 32 :=
  broadcastInDim S500000x1 ![0] bcast_S500000_S500000x1_0 (v46 a1)

def rIdx (a1 : IVec S2x500000 32) : IVec S500000x1 32 :=
  broadcastInDim S500000x1 ![0] bcast_S500000_S500000x1_0 (v53 a1)

def scIdx (a1 : IVec S2x500000 32) : IVec S500000x1 32 :=
  broadcastInDim S500000x1 ![0] bcast_S500000_S500000x1_0 (v3 a1)

def v48 (x : FVec F S50000x128 .f32) (a1 : IVec S2x500000 32) : FVec F S500000x128 .f32 :=
  Host.gather gather_S50000x128_S500000x1_S500000x128_1_0_n_n_0_1_1128 x (sIdx a1)

def v55 (x : FVec F S50000x128 .f32) (a1 : IVec S2x500000 32) : FVec F S500000x128 .f32 :=
  Host.gather gather_S50000x128_S500000x1_S500000x128_1_0_n_n_0_1_1128 x (rIdx a1)

def v56 (ea : FVec F S500000x128 .f32) (x : FVec F S50000x128 .f32) (a1 : IVec S2x500000 32) :
    FVec F S500000x384 .f32 :=
  concatenate S500000x384 1 [⟨S500000x128, ea⟩, ⟨S500000x128, v48 x a1⟩, ⟨S500000x128, v55 x a1⟩]
    concatenates_S500000x128_S500000x128_S500000x128_S500000x384_d1

def preE (cat : FVec F S500000x384 .f32) (W1 : FVec F S384x128 .f32) (b1 : FVec F S128 .f32) :
    FVec F S500000x128 .f32 :=
  addf (Host.dotGeneral dot_S500000x384_S384x128_S500000x128_1_0_0_1_n_n none cat W1)
    (broadcastInDim S500000x128 ![0, 1] bcast_S1x128_S500000x128_0_1
      (broadcastInDim S1x128 ![1] bcast_S128_S1x128_1 b1))

def hidE (cat : FVec F S500000x384 .f32) (W1 : FVec F S384x128 .f32) (b1 : FVec F S128 .f32) :
    FVec F S500000x128 .f32 :=
  siluE (preE cat W1 b1)

def v65 (cat : FVec F S500000x384 .f32) (W1 : FVec F S384x128 .f32) (b1 : FVec F S128 .f32)
    (W2 : FVec F S128x1 .f32) (b2 : FVec F S1 .f32) : FVec F S500000x1 .f32 :=
  addf (Host.dotGeneral dot_S500000x128_S128x1_S500000x1_1_0_0_1_n_n none (hidE cat W1 b1) W2)
    (broadcastInDim S500000x1 ![0, 1] bcast_S1x1_S500000x1_0_1
      (broadcastInDim S1x1 ![1] bcast_S1_S1x1_1 b2))

def v74 (cat : FVec F S500000x384 .f32) (W1 : FVec F S384x128 .f32) (b1 : FVec F S128 .f32)
    (W2 : FVec F S128x3 .f32) (b2 : FVec F S3 .f32) : FVec F S500000x3 .f32 :=
  addf (Host.dotGeneral dot_S500000x128_S128x3_S500000x3_1_0_0_1_n_n none (hidE cat W1 b1) W2)
    (broadcastInDim S500000x3 ![0, 1] bcast_S1x3_S500000x3_0_1
      (broadcastInDim S1x3 ![1] bcast_S3_S1x3_1 b2))

def v134 (dE3 : FVec F S50000x2x1 .f32) (a1 : IVec S2x500000 32) : FVec F S500000x2x1 .f32 :=
  Host.gather gather_S50000x2x1_S500000x1_S500000x2x1_12_0_n_n_0_1_121 dE3 (sIdx a1)
def v142 (dS3 : FVec F S50000x2x1 .f32) (a1 : IVec S2x500000 32) : FVec F S500000x2x1 .f32 :=
  Host.gather gather_S50000x2x1_S500000x1_S500000x2x1_12_0_n_n_0_1_121 dS3 (sIdx a1)

def v144 (p135 p143 : FVec F S500000x2x1 .f32) : FVec F S500000x2x1 .f32 := addf p135 p143

def v146 (t144 : FVec F S500000x2x1 .f32) : FVec F S500000x2 .f32 :=
  shapeCast S500000x2 t144 shapeCasts_S500000x2x1_S500000x2

def v149 (a1 : IVec S2x500000 32) (t146 : FVec F S500000x2 .f32) : FVec F S50000x2 .f32 :=
  Host.scatterAdd scatter_S50000x2_S500000x1_S500000x2_1_0_0_1
    (broadcastInDim S50000x2 ![] bcast_S_S50000x2 (constant S_ .f32 0x00000000#32)) (scIdx a1) t146

def v150 (vnt : FVec F S50000x2 .f32) (a1 : IVec S2x500000 32) (t146 : FVec F S500000x2 .f32) :
    FVec F S50000x2 .f32 :=
  subf vnt (v149 a1 t146)

end Cert.ReferenceIdeal.St

end
-- ==== Proof.RefRun1.lean ====
import proofs.«406161_j39298950758847_3_alg».proof.Proof.RefRun0
import proofs.«406161_j39298950758847_3_alg».proof.Proof.RefStN
import proofs.«406161_j39298950758847_3_alg».proof.Proof.RefStE
import proofs.«406161_j39298950758847_3_alg».proof.Proof.RefMatN
import proofs.«406161_j39298950758847_3_alg».proof.Proof.RefMatE

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

-- Blocks side by side along the last axis.
def cat3 (x y z : (⟨S500000x128, .f32⟩ : BufTy).Contents (Elt F)) : (⟨S500000x384, .f32⟩ : BufTy).Contents (Elt F) :=
  concatenate S500000x384 1 [⟨S500000x128, x⟩, ⟨S500000x128, y⟩, ⟨S500000x128, z⟩] concatenates_S500000x128_S500000x128_S500000x128_S500000x384_d1

def catPair (a b : (⟨S1x1, .i32⟩ : BufTy).Contents (Elt F)) : (⟨S1x2, .i32⟩ : BufTy).Contents (Elt F) :=
  concatenate S1x2 1 [⟨S1x1, a⟩, ⟨S1x1, b⟩] concatenates_S1x1_S1x1_S1x2_d1

def catTri (a b : (⟨S3x1, .i32⟩ : BufTy).Contents (Elt F)) : (⟨S3x2, .i32⟩ : BufTy).Contents (Elt F) :=
  concatenate S3x2 1 [⟨S3x1, a⟩, ⟨S3x1, b⟩] concatenates_S3x1_S3x1_S3x2_d1

-- What each stretch leaves, from any contents: a reference it does not write keeps its contents, each result is its operations composed.
theorem ops0a_at (V : Valuation τ sig (Elt F)) :
    (∀ r, r ∉ ops0a_W → after ops0a V (no_index (Proc.devRef .tc r)) = V (Proc.devRef .tc r))
    ∧ after ops0a V (no_index (Proc.devRef .tc main_c)) = constantI S1 32 1#32
    ∧ after ops0a V (no_index (Proc.devRef .tc main_c_0)) = constantI S1 1 0#1
    ∧ after ops0a V (no_index (Proc.devRef .tc main_c_1)) = constantI S1 32 0#32
    ∧ after ops0a V (no_index (Proc.devRef .tc main_c_2)) = constantI S1 1 0#1
    ∧ (after ops0a V (no_index (Proc.devRef .tc main_c_3)) = fun i => lit0 (S3.rowMajor i))
    ∧ after ops0a V (no_index (Proc.devRef .tc main_c_4)) = constantI S3 1 0#1
    ∧ (after ops0a V (no_index (Proc.devRef .tc main_c_5)) = fun i => lit1 (S3.rowMajor i))
    ∧ after ops0a V (no_index (Proc.devRef .tc main_c_6)) = constantI S3 1 0#1
    ∧ after ops0a V (no_index (Proc.devRef .tc main_c_7)) = constantI S1 1 0#1
    ∧ after ops0a V (no_index (Proc.devRef .tc main_c_8)) = constantI S1 1 0#1
    ∧ after ops0a V (no_index (Proc.devRef .tc main_c_9)) = constantI S3 1 0#1
    ∧ after ops0a V (no_index (Proc.devRef .tc main_c_10)) = constantI S3 1 0#1
    ∧ after ops0a V (no_index (Proc.devRef .tc main_v1)) = shapeCast S500000 (extractStridedSlice S1x500000 ![0, 0] (V (Proc.devRef .tc main_arg1)) slices_S2x500000_S1x500000_0_0) shapeCasts_S1x500000_S500000
    ∧ after ops0a V (no_index (Proc.devRef .tc main_v3)) = shapeCast S500000 (extractStridedSlice S1x500000 ![1, 0] (V (Proc.devRef .tc main_arg1)) slices_S2x500000_S1x500000_1_0) shapeCasts_S1x500000_S500000 := by
  refine ⟨fun _ h => chunk_keep 0 V h, ?_, ?_, ?_, ?_, ?_, ?_, ?_, ?_, ?_, ?_, ?_, ?_, ?_, ?_⟩ <;> (simp only [ops0a]; after_results_simp <;> rfl)

theorem ops0b_at (V : Valuation τ sig (Elt F)) :
    (∀ r, r ∉ ops0b_W → after ops0b V (no_index (Proc.devRef .tc r)) = V (Proc.devRef .tc r))
    ∧ after ops0b V (no_index (Proc.devRef .tc main_v13)) = St.v13 (St.v12 (V (Proc.devRef .tc main_arg0)) (V (Proc.devRef .tc main_arg3)) (V (Proc.devRef .tc main_arg4)) (V (Proc.devRef .tc main_arg5)) (V (Proc.devRef .tc main_arg6))) := by
  refine ⟨fun _ h => chunk_keep 1 V h, ?_⟩ <;> (simp only [ops0b]; after_results_simp <;> rfl)

theorem ops0c_at (V : Valuation τ sig (Elt F)) :
    (∀ r, r ∉ ops0c_W → after ops0c V (no_index (Proc.devRef .tc r)) = V (Proc.devRef .tc r))
    ∧ after ops0c V (no_index (Proc.devRef .tc main_v23)) = St.v23 (St.v22 (V (Proc.devRef .tc main_arg0)) (V (Proc.devRef .tc main_arg7)) (V (Proc.devRef .tc main_arg8)) (V (Proc.devRef .tc main_arg9)) (V (Proc.devRef .tc main_arg10))) := by
  refine ⟨fun _ h => chunk_keep 2 V h, ?_⟩ <;> (simp only [ops0c]; after_results_simp <;> rfl)

theorem ops0d_at (V : Valuation τ sig (Elt F)) :
    (∀ r, r ∉ ops0d_W → after ops0d V (no_index (Proc.devRef .tc r)) = V (Proc.devRef .tc r))
    ∧ after ops0d V (no_index (Proc.devRef .tc main_v32)) = St.v32 (V (Proc.devRef .tc main_arg0)) (V (Proc.devRef .tc main_arg11)) (V (Proc.devRef .tc main_arg12)) (V (Proc.devRef .tc main_arg13)) (V (Proc.devRef .tc main_arg14)) := by
  refine ⟨fun _ h => chunk_keep 3 V h, ?_⟩ <;> (simp only [ops0d]; after_results_simp <;> rfl)

theorem ops0e_at (V : Valuation τ sig (Elt F)) :
    (∀ r, r ∉ ops0e_W → after ops0e V (no_index (Proc.devRef .tc r)) = V (Proc.devRef .tc r))
    ∧ after ops0e V (no_index (Proc.devRef .tc main_v41)) = St.v41 (V (Proc.devRef .tc main_arg0)) (V (Proc.devRef .tc main_arg15)) (V (Proc.devRef .tc main_arg16)) (V (Proc.devRef .tc main_arg17)) (V (Proc.devRef .tc main_arg18)) := by
  refine ⟨fun _ h => chunk_keep 4 V h, ?_⟩ <;> (simp only [ops0e]; after_results_simp <;> rfl)

theorem ops0f_at (V : Valuation τ sig (Elt F)) :
    (∀ r, r ∉ ops0f_W → after ops0f V (no_index (Proc.devRef .tc r)) = V (Proc.devRef .tc r))
    ∧ after ops0f V (no_index (Proc.devRef .tc main_v43)) = cmpi .slt (V (Proc.devRef .tc main_v1)) (broadcastInDim S500000 ![] bcast_S_S500000 (constantI S_ 32 0#32))
    ∧ after ops0f V (no_index (Proc.devRef .tc main_v45)) = addi (V (Proc.devRef .tc main_v1)) (broadcastInDim S500000 ![] bcast_S_S500000 (constantI S_ 32 50000#32)) := by
  refine ⟨fun _ h => chunk_keep 5 V h, ?_, ?_⟩ <;> (simp only [ops0f]; after_results_simp <;> rfl)

theorem ops1a_at (V : Valuation τ sig (Elt F)) :
    (∀ r, r ∉ ops1a_W → after ops1a V (no_index (Proc.devRef .tc r)) = V (Proc.devRef .tc r))
    ∧ after ops1a V (no_index (Proc.devRef .tc main_v48)) = Host.gather gather_S50000x128_S500000x1_S500000x128_1_0_n_n_0_1_1128 (V (Proc.devRef .tc main_arg0)) (broadcastInDim S500000x1 ![0] bcast_S500000_S500000x1_0 (select (V (Proc.devRef .tc main_v43)) (V (Proc.devRef .tc main_v45)) (V (Proc.devRef .tc main_v1))))
    ∧ after ops1a V (no_index (Proc.devRef .tc main_v55)) = Host.gather gather_S50000x128_S500000x1_S500000x128_1_0_n_n_0_1_1128 (V (Proc.devRef .tc main_arg0)) (broadcastInDim S500000x1 ![0] bcast_S500000_S500000x1_0 (St.wrapIdx (V (Proc.devRef .tc main_v3)))) := by
  refine ⟨fun _ h => chunk_keep 6 V h, ?_, ?_⟩ <;> (simp only [ops1a]; after_results_simp <;> rfl)

theorem ops1b_at (V : Valuation τ sig (Elt F)) :
    (∀ r, r ∉ ops1b_W → after ops1b V (no_index (Proc.devRef .tc r)) = V (Proc.devRef .tc r))
    ∧ after ops1b V (no_index (Proc.devRef .tc main_v56)) = cat3 (V (Proc.devRef .tc main_arg2)) (V (Proc.devRef .tc main_v48)) (V (Proc.devRef .tc main_v55))
    ∧ after ops1b V (no_index (Proc.devRef .tc main_v65)) = St.v65 (cat3 (V (Proc.devRef .tc main_arg2)) (V (Proc.devRef .tc main_v48)) (V (Proc.devRef .tc main_v55))) (V (Proc.devRef .tc main_arg19)) (V (Proc.devRef .tc main_arg20)) (V (Proc.devRef .tc main_arg21)) (V (Proc.devRef .tc main_arg22)) := by
  refine ⟨fun _ h => chunk_keep 7 V h, ?_, ?_⟩ <;> (simp only [ops1b]; after_results_simp <;> rfl)

theorem ops1c_at (V : Valuation τ sig (Elt F)) :
    (∀ r, r ∉ ops1c_W → after ops1c V (no_index (Proc.devRef .tc r)) = V (Proc.devRef .tc r))
    ∧ after ops1c V (no_index (Proc.devRef .tc main_v74)) = St.v74 (V (Proc.devRef .tc main_v56)) (V (Proc.devRef .tc main_arg23)) (V (Proc.devRef .tc main_arg24)) (V (Proc.devRef .tc main_arg25)) (V (Proc.devRef .tc main_arg26)) := by
  refine ⟨fun _ h => chunk_keep 8 V h, ?_⟩ <;> (simp only [ops1c]; after_results_simp <;> rfl)

theorem ops1d_at (V : Valuation τ sig (Elt F)) :
    (∀ r, r ∉ ops1d_W → after ops1d V (no_index (Proc.devRef .tc r)) = V (Proc.devRef .tc r))
    ∧ (after ops1d V (no_index (Proc.devRef .tc main_v87)) = subf (Host.scatter scatter_S50000x2x2_S1x2_S50000x1_0_12_12_1 (fun _ b => b) (broadcastInDim S50000x2x2 ![] bcast_S_S50000x2x2 (constant S_ .f32 0x00000000#32)) (catPair (broadcastInDim S1x1 ![0] bcast_S1_S1x1_0 (select (V (Proc.devRef .tc main_c_0)) (addi (V (Proc.devRef .tc main_c)) (broadcastInDim S1 ![] bcast_S_S1 (constantI S_ 32 2#32))) (V (Proc.devRef .tc main_c)))) (broadcastInDim S1x1 ![0] bcast_S1_S1x1_0 (select (V (Proc.devRef .tc main_c_2)) (addi (V (Proc.devRef .tc main_c_1)) (broadcastInDim S1 ![] bcast_S_S1 (constantI S_ 32 2#32))) (V (Proc.devRef .tc main_c_1))))) (V (Proc.devRef .tc main_v32))) (transpose S50000x2x2 [0, 2, 1] (Host.scatter scatter_S50000x2x2_S1x2_S50000x1_0_12_12_1 (fun _ b => b) (broadcastInDim S50000x2x2 ![] bcast_S_S50000x2x2 (constant S_ .f32 0x00000000#32)) (catPair (broadcastInDim S1x1 ![0] bcast_S1_S1x1_0 (select (V (Proc.devRef .tc main_c_0)) (addi (V (Proc.devRef .tc main_c)) (broadcastInDim S1 ![] bcast_S_S1 (constantI S_ 32 2#32))) (V (Proc.devRef .tc main_c)))) (broadcastInDim S1x1 ![0] bcast_S1_S1x1_0 (select (V (Proc.devRef .tc main_c_2)) (addi (V (Proc.devRef .tc main_c_1)) (broadcastInDim S1 ![] bcast_S_S1 (constantI S_ 32 2#32))) (V (Proc.devRef .tc main_c_1))))) (V (Proc.devRef .tc main_v32))) transposes_S50000x2x2_S50000x2x2_0_2_1)) := by
  refine ⟨fun _ h => chunk_keep 9 V h, ?_⟩ <;> (simp only [ops1d]; after_results_simp <;> rfl)

theorem ops1e_at (V : Valuation τ sig (Elt F)) :
    (∀ r, r ∉ ops1e_W → after ops1e V (no_index (Proc.devRef .tc r)) = V (Proc.devRef .tc r))
    ∧ after ops1e V (no_index (Proc.devRef .tc main_v88)) = broadcastInDim S50000x2x2 ![] bcast_S_S50000x2x2 (constant S_ .f32 0x00000000#32)
    ∧ after ops1e V (no_index (Proc.devRef .tc main_v97)) = catTri (broadcastInDim S3x1 ![0] bcast_S3_S3x1_0 (select (V (Proc.devRef .tc main_c_4)) (addi (V (Proc.devRef .tc main_c_3)) (broadcastInDim S3 ![] bcast_S_S3 (constantI S_ 32 2#32))) (V (Proc.devRef .tc main_c_3)))) (broadcastInDim S3x1 ![0] bcast_S3_S3x1_0 (select (V (Proc.devRef .tc main_c_6)) (addi (V (Proc.devRef .tc main_c_5)) (broadcastInDim S3 ![] bcast_S_S3 (constantI S_ 32 2#32))) (V (Proc.devRef .tc main_c_5)))) := by
  refine ⟨fun _ h => chunk_keep 10 V h, ?_, ?_⟩ <;> (simp only [ops1e]; after_results_simp <;> rfl)

theorem ops2a_at (V : Valuation τ sig (Elt F)) :
    (∀ r, r ∉ ops2a_W → after ops2a V (no_index (Proc.devRef .tc r)) = V (Proc.devRef .tc r))
    ∧ (after ops2a V (no_index (Proc.devRef .tc main_v99)) = Host.dotGeneral dot_S50000x2x2_S50000x2x2_S50000x2x2_2_2_1_1_0_0 none (Host.scatter scatter_S50000x2x2_S3x2_S50000x3_0_12_12_1 (fun _ b => b) (V (Proc.devRef .tc main_v88)) (V (Proc.devRef .tc main_v97)) (V (Proc.devRef .tc main_v41))) (Host.scatter scatter_S50000x2x2_S3x2_S50000x3_0_12_12_1 (fun _ b => b) (V (Proc.devRef .tc main_v88)) (V (Proc.devRef .tc main_v97)) (V (Proc.devRef .tc main_v41)))) := by
  refine ⟨fun _ h => chunk_keep 11 V h, ?_⟩ <;> (simp only [ops2a]; after_results_simp <;> rfl)

theorem ops2b_at (V : Valuation τ sig (Elt F)) :
    (∀ r, r ∉ ops2b_W → after ops2b V (no_index (Proc.devRef .tc r)) = V (Proc.devRef .tc r))
    ∧ (after ops2b V (no_index (Proc.devRef .tc main_v112)) = subf (Host.scatter scatter_S500000x2x2_S1x2_S500000x1_0_12_12_1 (fun _ b => b) (broadcastInDim S500000x2x2 ![] bcast_S_S500000x2x2 (constant S_ .f32 0x00000000#32)) (catPair (broadcastInDim S1x1 ![0] bcast_S1_S1x1_0 (select (V (Proc.devRef .tc main_c_7)) (addi (V (Proc.devRef .tc main_c)) (broadcastInDim S1 ![] bcast_S_S1 (constantI S_ 32 2#32))) (V (Proc.devRef .tc main_c)))) (broadcastInDim S1x1 ![0] bcast_S1_S1x1_0 (select (V (Proc.devRef .tc main_c_8)) (addi (V (Proc.devRef .tc main_c_1)) (broadcastInDim S1 ![] bcast_S_S1 (constantI S_ 32 2#32))) (V (Proc.devRef .tc main_c_1))))) (V (Proc.devRef .tc main_v65))) (transpose S500000x2x2 [0, 2, 1] (Host.scatter scatter_S500000x2x2_S1x2_S500000x1_0_12_12_1 (fun _ b => b) (broadcastInDim S500000x2x2 ![] bcast_S_S500000x2x2 (constant S_ .f32 0x00000000#32)) (catPair (broadcastInDim S1x1 ![0] bcast_S1_S1x1_0 (select (V (Proc.devRef .tc main_c_7)) (addi (V (Proc.devRef .tc main_c)) (broadcastInDim S1 ![] bcast_S_S1 (constantI S_ 32 2#32))) (V (Proc.devRef .tc main_c)))) (broadcastInDim S1x1 ![0] bcast_S1_S1x1_0 (select (V (Proc.devRef .tc main_c_8)) (addi (V (Proc.devRef .tc main_c_1)) (broadcastInDim S1 ![] bcast_S_S1 (constantI S_ 32 2#32))) (V (Proc.devRef .tc main_c_1))))) (V (Proc.devRef .tc main_v65))) transposes_S500000x2x2_S500000x2x2_0_2_1)) := by
  refine ⟨fun _ h => chunk_keep 12 V h, ?_⟩ <;> (simp only [ops2b]; after_results_simp <;> rfl)

theorem ops2c_at (V : Valuation τ sig (Elt F)) :
    (∀ r, r ∉ ops2c_W → after ops2c V (no_index (Proc.devRef .tc r)) = V (Proc.devRef .tc r))
    ∧ (after ops2c V (no_index (Proc.devRef .tc main_v124)) = Host.dotGeneral dot_S500000x2x2_S500000x2x2_S500000x2x2_2_2_1_1_0_0 none (Host.scatter scatter_S500000x2x2_S3x2_S500000x3_0_12_12_1 (fun _ b => b) (broadcastInDim S500000x2x2 ![] bcast_S_S500000x2x2 (constant S_ .f32 0x00000000#32)) (catTri (broadcastInDim S3x1 ![0] bcast_S3_S3x1_0 (select (V (Proc.devRef .tc main_c_9)) (addi (V (Proc.devRef .tc main_c_3)) (broadcastInDim S3 ![] bcast_S_S3 (constantI S_ 32 2#32))) (V (Proc.devRef .tc main_c_3)))) (broadcastInDim S3x1 ![0] bcast_S3_S3x1_0 (select (V (Proc.devRef .tc main_c_10)) (addi (V (Proc.devRef .tc main_c_5)) (broadcastInDim S3 ![] bcast_S_S3 (constantI S_ 32 2#32))) (V (Proc.devRef .tc main_c_5))))) (V (Proc.devRef .tc main_v74))) (Host.scatter scatter_S500000x2x2_S3x2_S500000x3_0_12_12_1 (fun _ b => b) (broadcastInDim S500000x2x2 ![] bcast_S_S500000x2x2 (constant S_ .f32 0x00000000#32)) (catTri (broadcastInDim S3x1 ![0] bcast_S3_S3x1_0 (select (V (Proc.devRef .tc main_c_9)) (addi (V (Proc.devRef .tc main_c_3)) (broadcastInDim S3 ![] bcast_S_S3 (constantI S_ 32 2#32))) (V (Proc.devRef .tc main_c_3)))) (broadcastInDim S3x1 ![0] bcast_S3_S3x1_0 (select (V (Proc.devRef .tc main_c_10)) (addi (V (Proc.devRef .tc main_c_5)) (broadcastInDim S3 ![] bcast_S_S3 (constantI S_ 32 2#32))) (V (Proc.devRef .tc main_c_5))))) (V (Proc.devRef .tc main_v74)))) := by
  refine ⟨fun _ h => chunk_keep 13 V h, ?_⟩ <;> (simp only [ops2c]; after_results_simp <;> rfl)

theorem ops2d_at (V : Valuation τ sig (Elt F)) :
    (∀ r, r ∉ ops2d_W → after ops2d V (no_index (Proc.devRef .tc r)) = V (Proc.devRef .tc r))
    ∧ after ops2d V (no_index (Proc.devRef .tc main_v127)) = addf (Host.dotGeneral dot_S50000x2x2_S50000x2x1_S50000x2x1_2_1_1_2_0_0 none (V (Proc.devRef .tc main_v87)) (V (Proc.devRef .tc main_v13))) (Host.dotGeneral dot_S50000x2x2_S50000x2x1_S50000x2x1_2_1_1_2_0_0 none (V (Proc.devRef .tc main_v99)) (V (Proc.devRef .tc main_v23)))
    ∧ after ops2d V (no_index (Proc.devRef .tc main_v135)) = Host.dotGeneral dot_S500000x2x2_S500000x2x1_S500000x2x1_2_1_1_2_0_0 none (V (Proc.devRef .tc main_v112)) (Host.gather gather_S50000x2x1_S500000x1_S500000x2x1_12_0_n_n_0_1_121 (V (Proc.devRef .tc main_v13)) (broadcastInDim S500000x1 ![0] bcast_S500000_S500000x1_0 (St.wrapIdx (V (Proc.devRef .tc main_v1))))) := by
  refine ⟨fun _ h => chunk_keep 14 V h, ?_, ?_⟩ <;> (simp only [ops2d]; after_results_simp <;> rfl)

theorem ops2e_at (V : Valuation τ sig (Elt F)) :
    (∀ r, r ∉ ops2e_W → after ops2e V (no_index (Proc.devRef .tc r)) = V (Proc.devRef .tc r))
    ∧ after ops2e V (no_index (Proc.devRef .tc main_v145)) = shapeCast S50000x2 (V (Proc.devRef .tc main_v127)) shapeCasts_S50000x2x1_S50000x2
    ∧ after ops2e V (no_index (Proc.devRef .tc main_v146)) = shapeCast S500000x2 (addf (V (Proc.devRef .tc main_v135)) (Host.dotGeneral dot_S500000x2x2_S500000x2x1_S500000x2x1_2_1_1_2_0_0 none (V (Proc.devRef .tc main_v124)) (Host.gather gather_S50000x2x1_S500000x1_S500000x2x1_12_0_n_n_0_1_121 (V (Proc.devRef .tc main_v23)) (broadcastInDim S500000x1 ![0] bcast_S500000_S500000x1_0 (St.wrapIdx (V (Proc.devRef .tc main_v1))))))) shapeCasts_S500000x2x1_S500000x2
    ∧ after ops2e V (no_index (Proc.devRef .tc main_cst_30)) = constant S_ .f32 0x00000000#32 := by
  refine ⟨fun _ h => chunk_keep 15 V h, ?_, ?_, ?_⟩ <;> (simp only [ops2e]; after_results_simp <;> rfl)

theorem ops3a_at (V : Valuation τ sig (Elt F)) :
    (∀ r, r ∉ ops3a_W → after ops3a V (no_index (Proc.devRef .tc r)) = V (Proc.devRef .tc r))
    ∧ after ops3a V (no_index (Proc.devRef .tc main_v150)) = subf (V (Proc.devRef .tc main_v145)) (Host.scatterAdd scatter_S50000x2_S500000x1_S500000x2_1_0_0_1 (broadcastInDim S50000x2 ![] bcast_S_S50000x2 (V (Proc.devRef .tc main_cst_30))) (broadcastInDim S500000x1 ![0] bcast_S500000_S500000x1_0 (V (Proc.devRef .tc main_v3))) (V (Proc.devRef .tc main_v146)))
    ∧ after ops3a V (no_index (Proc.devRef .tc main_v151)) = Host.dotGeneral dot_S50000x2x2_S50000x2x1_S50000x2x1_2_1_1_2_0_0 none (V (Proc.devRef .tc main_v99)) (V (Proc.devRef .tc main_v13))
    ∧ after ops3a V (no_index (Proc.devRef .tc main_v152)) = Host.dotGeneral dot_S50000x2x2_S50000x2x1_S50000x2x1_2_1_1_2_0_0 none (V (Proc.devRef .tc main_v87)) (V (Proc.devRef .tc main_v23)) := by
  refine ⟨fun _ h => chunk_keep 16 V h, ?_, ?_, ?_⟩ <;> (simp only [ops3a]; after_results_simp <;> rfl)

theorem res_out0 (m : (ℓ : Loc nD τ sig) → Buf (Elt F) ℓ) (d : Dev nD) :
    after ops (launchContents m d) (Proc.devRef .tc main_v150) =
      St.v150 (St.v145 (St.v127 (St.v32 (m ((d.tc : Thread nD τ).loc main_arg0)) (m ((d.tc : Thread nD τ).loc main_arg11)) (m ((d.tc : Thread nD τ).loc main_arg12)) (m ((d.tc : Thread nD τ).loc main_arg13)) (m ((d.tc : Thread nD τ).loc main_arg14))) (St.v41 (m ((d.tc : Thread nD τ).loc main_arg0)) (m ((d.tc : Thread nD τ).loc main_arg15)) (m ((d.tc : Thread nD τ).loc main_arg16)) (m ((d.tc : Thread nD τ).loc main_arg17)) (m ((d.tc : Thread nD τ).loc main_arg18))) (St.v13 (St.v12 (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6)))) (St.v23 (St.v22 (m ((d.tc : Thread nD τ).loc main_arg0)) (m ((d.tc : Thread nD τ).loc main_arg7)) (m ((d.tc : Thread nD τ).loc main_arg8)) (m ((d.tc : Thread nD τ).loc main_arg9)) (m ((d.tc : Thread nD τ).loc main_arg10)))))) (m ((d.tc : Thread nD τ).loc main_arg1))
        (St.v146 (St.v144 (St.v135 (St.v65 (St.v56 (m ((d.tc : Thread nD τ).loc main_arg2)) (m ((d.tc : Thread nD τ).loc main_arg0)) (m ((d.tc : Thread nD τ).loc main_arg1))) (m ((d.tc : Thread nD τ).loc main_arg19)) (m ((d.tc : Thread nD τ).loc main_arg20)) (m ((d.tc : Thread nD τ).loc main_arg21)) (m ((d.tc : Thread nD τ).loc main_arg22))) (St.v134 (St.v13 (St.v12 (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6)))) (m ((d.tc : Thread nD τ).loc main_arg1))))
          (St.v143 (St.v74 (St.v56 (m ((d.tc : Thread nD τ).loc main_arg2)) (m ((d.tc : Thread nD τ).loc main_arg0)) (m ((d.tc : Thread nD τ).loc main_arg1))) (m ((d.tc : Thread nD τ).loc main_arg23)) (m ((d.tc : Thread nD τ).loc main_arg24)) (m ((d.tc : Thread nD τ).loc main_arg25)) (m ((d.tc : Thread nD τ).loc main_arg26))) (St.v142 (St.v23 (St.v22 (m ((d.tc : Thread nD τ).loc main_arg0)) (m ((d.tc : Thread nD τ).loc main_arg7)) (m ((d.tc : Thread nD τ).loc main_arg8)) (m ((d.tc : Thread nD τ).loc main_arg9)) (m ((d.tc : Thread nD τ).loc main_arg10)))) (m ((d.tc : Thread nD τ).loc main_arg1)))))) := by
  simp only [ops, opsP0, opsP1, opsP2, opsP3, after_append]
  simp (disch := decide) only [ops0a_at, ops0b_at, ops0c_at, ops0d_at, ops0e_at, ops0f_at, ops1a_at, ops1b_at, ops1c_at, ops1d_at, ops1e_at, ops2a_at, ops2b_at, ops2c_at, ops2d_at, ops2e_at, ops3a_at]
  rfl

theorem res_out1 (m : (ℓ : Loc nD τ sig) → Buf (Elt F) ℓ) (d : Dev nD) :
    after ops (launchContents m d) (Proc.devRef .tc main_v151) =
      St.v151 (St.v41 (m ((d.tc : Thread nD τ).loc main_arg0)) (m ((d.tc : Thread nD τ).loc main_arg15)) (m ((d.tc : Thread nD τ).loc main_arg16)) (m ((d.tc : Thread nD τ).loc main_arg17)) (m ((d.tc : Thread nD τ).loc main_arg18))) (St.v13 (St.v12 (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6)))) := by
  simp only [ops, opsP0, opsP1, opsP2, opsP3, after_append]
  simp (disch := decide) only [ops0a_at, ops0b_at, ops0c_at, ops0d_at, ops0e_at, ops0f_at, ops1a_at, ops1b_at, ops1c_at, ops1d_at, ops1e_at, ops2a_at, ops2b_at, ops2c_at, ops2d_at, ops2e_at, ops3a_at]
  rfl

theorem res_out2 (m : (ℓ : Loc nD τ sig) → Buf (Elt F) ℓ) (d : Dev nD) :
    after ops (launchContents m d) (Proc.devRef .tc main_v152) =
      St.v152 (St.v32 (m ((d.tc : Thread nD τ).loc main_arg0)) (m ((d.tc : Thread nD τ).loc main_arg11)) (m ((d.tc : Thread nD τ).loc main_arg12)) (m ((d.tc : Thread nD τ).loc main_arg13)) (m ((d.tc : Thread nD τ).loc main_arg14))) (St.v23 (St.v22 (m ((d.tc : Thread nD τ).loc main_arg0)) (m ((d.tc : Thread nD τ).loc main_arg7)) (m ((d.tc : Thread nD τ).loc main_arg8)) (m ((d.tc : Thread nD τ).loc main_arg9)) (m ((d.tc : Thread nD τ).loc main_arg10)))) := by
  simp only [ops, opsP0, opsP1, opsP2, opsP3, after_append]
  simp (disch := decide) only [ops0a_at, ops0b_at, ops0c_at, ops0d_at, ops0e_at, ops0f_at, ops1a_at, ops1b_at, ops1c_at, ops1d_at, ops1e_at, ops2a_at, ops2b_at, ops2c_at, ops2d_at, ops2e_at, ops3a_at]
  rfl

end Cert.ReferenceIdeal.Ops

end
-- ==== Proof.RefRun.lean ====
import proofs.«406161_j39298950758847_3_alg».proof.Proof.RefRun0
import proofs.«406161_j39298950758847_3_alg».proof.Proof.RefRun1
-- ==== Proof.RefValN.lean ====
import proofs.«406161_j39298950758847_3_alg».proof.Proof.RefStN
import proofs.«406161_j39298950758847_3_alg».proof.Proof.Spec
import Idealize.ShloMosaic.Lib.ValueIdx
import Idealize.ShloMosaic.Lib.Pipeline.Value
import Idealize.ShloMosaic.Lib.StackMember
import Idealize.ShloMosaic.Lib.KernelVsHost
import Idealize.ShloMosaic.PureOps.Ideal.Laws

noncomputable section

namespace Cert.ReferenceIdeal.St

open Idealize.ShloMosaic Idealize.ShloMosaic.ValueIdx
open Cert.ReferenceIdeal Cert.ReferenceIdeal.Facts₀
open scoped BigOperators

theorem siluN_apply (z : FVec Ideal S50000x128 .f32) (i : S50000x128.Idx) :
    siluN z i = Cert.Spec.silu (z i) := by
  show z i * Ideal.div (Ideal.ofBits .f32 0x3F800000#32) (Ideal.ofBits .f32 0x3F800000#32 + Ideal.exp (-(z i))) = _
  rw [Ideal.ofBits_one_f32]
  rfl

-- Both broadcasts only repeat the row, so every entry of column j is b[j].
theorem biasN_apply {α : Type} (R C : Nat)
    (h1 : (⟨1, ![C]⟩ : Shape).BroadcastsInDim ⟨2, ![1, C]⟩ (![1] : Fin 1 → Fin (⟨2, ![1, C]⟩ : Shape).rank))
    (h2 : (⟨2, ![1, C]⟩ : Shape).BroadcastsInDim ⟨2, ![R, C]⟩ (![0, 1] : Fin 2 → Fin (⟨2, ![R, C]⟩ : Shape).rank))
    (b : (⟨1, ![C]⟩ : Shape).Idx → α) (n : Fin R) (j : Fin C) :
    broadcastInDim ⟨2, ![R, C]⟩ ![0, 1] h2 (broadcastInDim ⟨2, ![1, C]⟩ ![1] h1 b) (ix2 n j) = b (ix1 j) :=
  (broadcastInDim_oneRow_apply h2 _ n j).trans (broadcastInDim_apply _ h1 b _ (ix1 j) fun a => match a with
    | ⟨0, _⟩ => show j.val = if C = 1 then 0 else j.val by
      split_ifs with h
      · have := j.isLt; omega
      · rfl)

theorem col3N_apply {α : Type} (d : S50000x2.Idx → α) (n : Fin 50000) (o : Fin 2) :
    broadcastInDim S50000x2x1 ![0, 1] bcast_S50000x2_S50000x2x1_0_1 d (ix3 n o (0 : Fin 1)) = d (ix2 n o) :=
  broadcastInDim_apply _ _ d _ (ix2 n o) fun a => match a with
    | ⟨0, _⟩ => by show n.val = if (50000 : Nat) = 1 then 0 else n.val; rw [if_neg (by decide)]
    | ⟨1, _⟩ => by show o.val = if (2 : Nat) = 1 then 0 else o.val; rw [if_neg (by decide)]

theorem v145_apply (t : FVec Ideal S50000x2x1 .f32) (n : Fin 50000) (o : Fin 2) :
    v145 t (ix2 n o) = t (ix3 n o (0 : Fin 1)) := by
  unfold v145
  refine shapeCast_apply t _ (ix2 n o) (ix3 n o (0 : Fin 1)) ?_
  rw [Shape.rowMajor_val_three, Shape.rowMajor_val_two]
  show (n.val * 2 + o.val) * 1 + 0 = n.val * 2 + o.val
  omega

theorem hidN_apply (x : FVec Ideal S50000x128 .f32) (W1 : FVec Ideal S128x128 .f32) (b1 : FVec Ideal S128 .f32)
    (n : Fin 50000) (j : Fin 128) :
    hidN x W1 b1 (ix2 n j) = Cert.Spec.silu (Cert.Spec.lin (fun n k => x (ix2 n k)) W1 b1 n j) :=
  (siluN_apply _ _).trans (congrArg Cert.Spec.silu
    (congrArg₂ (· + ·) (StackMember.dotGeneral_plain_apply none x W1 n j) (biasN_apply 50000 128 _ _ b1 n j)))

-- A head of any output width C, read at an entry, is the specification's two-layer function.
theorem headN_apply {C : Nat} (h1 : (⟨1, ![C]⟩ : Shape).BroadcastsInDim ⟨2, ![1, C]⟩ ![1])
    (h2 : (⟨2, ![1, C]⟩ : Shape).BroadcastsInDim ⟨2, ![50000, C]⟩ ![0, 1])
    (x : FVec Ideal S50000x128 .f32) (W1 : FVec Ideal S128x128 .f32) (b1 : FVec Ideal S128 .f32)
    (W2 : FVec Ideal ⟨2, ![128, C]⟩ .f32) (b2 : FVec Ideal ⟨1, ![C]⟩ .f32) (y : (⟨2, ![50000, C]⟩ : Shape).Idx) :
    addf (Host.dotGeneral (F := Ideal) (DotDims.plain 50000 128 C) none (hidN x W1 b1) W2)
        (broadcastInDim ⟨2, ![50000, C]⟩ ![0, 1] h2 (broadcastInDim ⟨2, ![1, C]⟩ ![1] h1 b2)) y
      = Cert.Spec.mlp (fun n k => x (ix2 n k)) W1 b1 W2 b2 (y 0) (y 1) := by
  obtain ⟨n, o, rfl⟩ : ∃ (n : Fin 50000) (o : Fin C), y = ix2 n o := ⟨y 0, y 1, eq_ix2 y⟩
  refine (congrArg₂ (· + ·) (StackMember.dotGeneral_plain_apply none (hidN x W1 b1) W2 n o) (biasN_apply 50000 C h1 h2 b2 n o)).trans ?_
  show _ = Cert.Spec.mlp (fun n k => x (ix2 n k)) W1 b1 W2 b2 n o
  unfold Cert.Spec.mlp Cert.Spec.out
  exact congrArg (· + b2 (ix1 o)) (Finset.sum_congr rfl fun j _ => by rw [hidN_apply])

theorem v12_eq (P : Cert.Spec.NodeP) :
    v12 (F := Ideal) P.x P.EgW1 P.Egb1 P.EgW2 P.Egb2 = fun y => P.dE (y 0) (y 1) :=
  funext (headN_apply _ _ P.x P.EgW1 P.Egb1 P.EgW2 P.Egb2)

theorem v22_eq (P : Cert.Spec.NodeP) :
    v22 (F := Ideal) P.x P.SgW1 P.Sgb1 P.SgW2 P.Sgb2 = fun y => P.dS (y 0) (y 1) :=
  funext (headN_apply _ _ P.x P.SgW1 P.Sgb1 P.SgW2 P.Sgb2)

abbrev lN (P : Cert.Spec.NodeP) : FVec Ideal S50000x1 .f32 := v32 P.x P.LnW1 P.Lnb1 P.LnW2 P.Lnb2
abbrev mN (P : Cert.Spec.NodeP) : FVec Ideal S50000x3 .f32 := v41 P.x P.MnW1 P.Mnb1 P.MnW2 P.Mnb2
abbrev dE3N (P : Cert.Spec.NodeP) : FVec Ideal S50000x2x1 .f32 := v13 (v12 P.x P.EgW1 P.Egb1 P.EgW2 P.Egb2)
abbrev dS3N (P : Cert.Spec.NodeP) : FVec Ideal S50000x2x1 .f32 := v23 (v22 P.x P.SgW1 P.Sgb1 P.SgW2 P.Sgb2)

theorem lN_apply (P : Cert.Spec.NodeP) (n : Fin 50000) : lN P (ix2 n 0) = P.ln n :=
  headN_apply _ _ P.x P.LnW1 P.Lnb1 P.LnW2 P.Lnb2 (ix2 n 0)
theorem mN_apply (P : Cert.Spec.NodeP) (n : Fin 50000) (o : Fin 3) : mN P (ix2 n o) = P.mn n o :=
  headN_apply _ _ P.x P.MnW1 P.Mnb1 P.MnW2 P.Mnb2 (ix2 n o)
theorem dE3N_apply (P : Cert.Spec.NodeP) (n : Fin 50000) (o : Fin 2) : dE3N P (ix3 n o 0) = P.dE n o :=
  (col3N_apply _ n o).trans (congrFun (v12_eq P) _)
theorem dS3N_apply (P : Cert.Spec.NodeP) (n : Fin 50000) (o : Fin 2) : dS3N P (ix3 n o 0) = P.dS n o :=
  (col3N_apply _ n o).trans (congrFun (v22_eq P) _)

theorem v152_eq (P : Cert.Spec.NodeP) : v152 (F := Ideal) (lN P) (dS3N P) = P.degSA := by
  funext y
  obtain ⟨n, o, z, rfl⟩ : ∃ (n : Fin 50000) (o : Fin 2) (z : Fin 1), y = ix3 n o z := ⟨y 0, y 1, y 2, eq_ix3 y⟩
  obtain rfl : z = 0 := Subsingleton.elim _ _
  have h := LvN_apply (lN P) (dS3N P) n
  rw [lN_apply, dS3N_apply, dS3N_apply] at h
  match o with
  | ⟨0, _⟩ => exact h.1
  | ⟨1, _⟩ => exact h.2

theorem v151_eq (P : Cert.Spec.NodeP) : v151 (F := Ideal) (mN P) (dE3N P) = P.degEA := by
  funext y
  obtain ⟨n, o, z, rfl⟩ : ∃ (n : Fin 50000) (o : Fin 2) (z : Fin 1), y = ix3 n o z := ⟨y 0, y 1, y 2, eq_ix3 y⟩
  obtain rfl : z = 0 := Subsingleton.elim _ _
  have h := MwN_apply (mN P) (dE3N P) n
  rw [mN_apply, mN_apply, mN_apply, dE3N_apply, dE3N_apply] at h
  match o with
  | ⟨0, _⟩ => exact h.1
  | ⟨1, _⟩ => exact h.2

theorem v145_eq (P : Cert.Spec.NodeP) :
    v145 (F := Ideal) (v127 (lN P) (mN P) (dE3N P) (dS3N P)) = P.ntA := by
  funext y
  obtain ⟨n, o, rfl⟩ : ∃ (n : Fin 50000) (o : Fin 2), y = ix2 n o := ⟨y 0, y 1, eq_ix2 y⟩
  have hL := LvN_apply (lN P) (dE3N P) n
  have hM := MwN_apply (mN P) (dS3N P) n
  rw [lN_apply, dE3N_apply, dE3N_apply] at hL
  rw [mN_apply, mN_apply, mN_apply, dS3N_apply, dS3N_apply] at hM
  rw [v145_apply]
  match o with
  | ⟨0, _⟩ => exact congrArg₂ (· + ·) hL.1 hM.1
  | ⟨1, _⟩ => exact congrArg₂ (· + ·) hL.2 hM.2

end Cert.ReferenceIdeal.St

end
-- ==== Proof.RefValE.lean ====
import proofs.«406161_j39298950758847_3_alg».proof.Proof.RefStE
import proofs.«406161_j39298950758847_3_alg».proof.Proof.Spec
import proofs.«406161_j39298950758847_3_alg».proof.Proof.RefMatE
import proofs.«406161_j39298950758847_3_alg».proof.Proof.RefValN
import Idealize.ShloMosaic.Lib.ValueIdx
import Idealize.ShloMosaic.Lib.Pipeline.Value
import Idealize.ShloMosaic.PureOps.Ideal.Laws

noncomputable section

open scoped BigOperators

namespace Cert.ReferenceIdeal.St

open Idealize.ShloMosaic Idealize.ShloMosaic.ValueIdx
open Cert.ReferenceIdeal Cert.ReferenceIdeal.Facts₀

theorem gatherRow_apply (x : Cert.Spec.Arr2 50000 128) (idx : IVec S500000x1 32) (e : Fin 500000) (k : Fin 128) :
    Host.gather gather_S50000x128_S500000x1_S500000x128_1_0_n_n_0_1_1128 x idx (ix2 e k)
      = x (ix2 (Cert.Spec.rowOf idx e) k) :=
  Cert.Spec.gather_rows_apply (N := 50000) (R := 500000) (C := 128) (by omega)
    gather_S50000x128_S500000x1_S500000x128_1_0_n_n_0_1_1128.wf x idx e k

theorem siluE_apply (z : FVec Ideal S500000x128 .f32) (i : S500000x128.Idx) :
    siluE (F := Ideal) z i = Cert.Spec.silu (z i) := by
  show z i * Ideal.div (Ideal.ofBits .f32 0x3F800000#32) (Ideal.ofBits .f32 0x3F800000#32 + Ideal.exp (-(z i))) = _
  rw [Ideal.ofBits_one_f32]
  rfl

theorem sum384 {M : Type*} [AddCommMonoid M] (f : Fin 384 → M) :
    ∑ k : Fin 384, f k
      = ((∑ k : Fin 128, f ⟨k.val, by omega⟩) + ∑ k : Fin 128, f ⟨128 + k.val, by omega⟩)
        + ∑ k : Fin 128, f ⟨256 + k.val, by omega⟩ := by
  have h1 := Fin.sum_univ_add (a := 256) (b := 128) f
  have h2 := Fin.sum_univ_add (a := 128) (b := 128) (fun i : Fin 256 => f (Fin.castAdd 128 i))
  rw [h2] at h1
  exact h1

theorem gatherVec_apply (x : Cert.Spec.Arr3 50000 2 1) (idx : IVec S500000x1 32) (e : Fin 500000) (i : Fin 2)
    (c : Fin 1) :
    Host.gather gather_S50000x2x1_S500000x1_S500000x2x1_12_0_n_n_0_1_121 x idx (ix3 e i c) = x (ix3 (Cert.Spec.rowOf idx e) i c) := by
  unfold Host.gather
  refine congrArg x (funext fun a => Fin.ext ?_)
  match a with
  | ⟨0, _⟩ =>
    show gather_S50000x2x1_S500000x1_S500000x2x1_12_0_n_n_0_1_121.start (ix3 e i c) idx 0 + gather_S50000x2x1_S500000x1_S500000x2x1_12_0_n_n_0_1_121.batchCoord (ix3 e i c) 0 + gather_S50000x2x1_S500000x1_S500000x2x1_12_0_n_n_0_1_121.offCoord (ix3 e i c) 0
      = min (idx (ix2 e 0)).toInt.toNat (50000 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S50000x2x1_S500000x1_S500000x2x1_12_0_n_n_0_1_121.startIndexMap from List.mem_singleton.mpr rfl)]
    have hsi : gather_S50000x2x1_S500000x1_S500000x2x1_12_0_n_n_0_1_121.siIdx (ix3 e i c)
        ⟨List.idxOf (0 : Fin 3) gather_S50000x2x1_S500000x1_S500000x2x1_12_0_n_n_0_1_121.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ | ⟨2, _⟩ => exact Nat.zero_add _

section Cat
variable {α : Type} (x0 x1 x2 : S500000x128.Idx → α) (e : Fin 500000) (k : Fin 128)

-- Column 128·p + k of the three-piece row is column k of piece p.
theorem cat3_apply (p : Fin 3) (c : Fin 384) (hc : 128 * p.val + k.val = c.val) :
    concatenate S500000x384 1 [⟨S500000x128, x0⟩, ⟨S500000x128, x1⟩, ⟨S500000x128, x2⟩]
      concatenates_S500000x128_S500000x128_S500000x128_S500000x384_d1 (ix2 e c) = ![x0, x1, x2] p (ix2 e k) :=
  concatenate_apply_piece (t := S500000x384) (1 : Fin 2) [⟨S500000x128, x0⟩, ⟨S500000x128, x1⟩, ⟨S500000x128, x2⟩] _ _
    p.val p.isLt S500000x128 (![x0, x1, x2] p)
    (match p with | ⟨0, _⟩ | ⟨1, _⟩ | ⟨2, _⟩ => rfl) rfl (128 * p.val)
    (match p with | ⟨0, _⟩ | ⟨1, _⟩ | ⟨2, _⟩ => rfl) (ix2 e k)
    (fun b hb => match b with | ⟨0, _⟩ => rfl | ⟨1, _⟩ => absurd rfl hb) hc

end Cat

section Heads
variable (P : Cert.Spec.NodeP) (Q : Cert.Spec.EdgeP) (a1 : IVec S2x500000 32)

theorem preE_apply (W1 : Cert.Spec.Arr2 384 128) (b1 : Cert.Spec.Arr1 128) (e : Fin 500000) (j : Fin 128) :
    preE (F := Ideal) (v56 Q.ea P.x a1) W1 b1 (ix2 e j)
      = Q.pre P (Cert.Spec.rowOf (sIdx a1)) (Cert.Spec.rowOf (rIdx a1)) W1 b1 e j := by
  unfold preE Cert.Spec.EdgeP.pre
  refine (congrArg₂ (· + ·) ((StackMember.dotGeneral_plain_apply none _ W1 e j).trans (sum384 _)) (biasN_apply 500000 128 _ _ b1 e j)).trans ?_
  have cat := cat3_apply Q.ea (v48 (F := Ideal) P.x a1) (v55 (F := Ideal) P.x a1) e
  exact congrArg (· + b1 (ix1 j)) (congrArg₂ (· + ·) (congrArg₂ (· + ·)
    (Finset.sum_congr rfl fun k _ => congrArg (· * _) (cat k 0 _ (Nat.zero_add _)))
    (Finset.sum_congr rfl fun k _ => congrArg (· * _) ((cat k 1 _ rfl).trans (gatherRow_apply _ _ e k))))
    (Finset.sum_congr rfl fun k _ => congrArg (· * _) ((cat k 2 _ rfl).trans (gatherRow_apply _ _ e k))))

theorem hidE_apply (W1 : Cert.Spec.Arr2 384 128) (b1 : Cert.Spec.Arr1 128) (e : Fin 500000) (j : Fin 128) :
    hidE (F := Ideal) (v56 Q.ea P.x a1) W1 b1 (ix2 e j)
      = Cert.Spec.silu (Q.pre P (Cert.Spec.rowOf (sIdx a1)) (Cert.Spec.rowOf (rIdx a1)) W1 b1 e j) := by
  unfold hidE
  rw [siluE_apply, preE_apply]

theorem v65_eq :
    v65 (F := Ideal) (v56 Q.ea P.x a1) Q.LeW1 Q.Leb1 Q.LeW2 Q.Leb2
      = fun y => Q.le P (Cert.Spec.rowOf (sIdx a1)) (Cert.Spec.rowOf (rIdx a1)) (y 0) := by
  funext y
  obtain ⟨e, c, rfl⟩ : ∃ (e : Fin 500000) (c : Fin 1), y = ix2 e c := ⟨y 0, y 1, eq_ix2 y⟩
  obtain rfl : c = 0 := Subsingleton.elim _ _
  show v65 (F := Ideal) _ _ _ _ _ (ix2 e 0) = Q.le P _ _ e
  unfold v65 Cert.Spec.EdgeP.le Cert.Spec.out
  refine (congrArg₂ (· + ·) (StackMember.dotGeneral_plain_apply none _ Q.LeW2 e 0) (biasN_apply 500000 1 _ _ Q.Leb2 e 0)).trans ?_
  exact congrArg (· + Q.Leb2 (ix1 0)) (Finset.sum_congr rfl fun k _ => by rw [hidE_apply])

theorem v74_eq :
    v74 (F := Ideal) (v56 Q.ea P.x a1) Q.MeW1 Q.Meb1 Q.MeW2 Q.Meb2
      = fun y => Q.me P (Cert.Spec.rowOf (sIdx a1)) (Cert.Spec.rowOf (rIdx a1)) (y 0) (y 1) := by
  funext y
  obtain ⟨e, o, rfl⟩ : ∃ (e : Fin 500000) (o : Fin 3), y = ix2 e o := ⟨y 0, y 1, eq_ix2 y⟩
  show v74 (F := Ideal) _ _ _ _ _ (ix2 e o) = Q.me P _ _ e o
  unfold v74 Cert.Spec.EdgeP.me Cert.Spec.out
  refine (congrArg₂ (· + ·) (StackMember.dotGeneral_plain_apply none _ Q.MeW2 e o) (biasN_apply 500000 3 _ _ Q.Meb2 e o)).trans ?_
  exact congrArg (· + Q.Meb2 (ix1 o)) (Finset.sum_congr rfl fun k _ => by rw [hidE_apply])

end Heads

section EdgeTerm
variable (P : Cert.Spec.NodeP) (Q : Cert.Spec.EdgeP) (a1 : IVec S2x500000 32)

theorem v146_apply (t : FVec Ideal S500000x2x1 .f32) (e : Fin 500000) (i : Fin 2) :
    v146 (F := Ideal) t (ix2 e i) = t (ix3 e i 0) := by
  unfold v146
  exact shapeCast_apply _ _ (ix2 e i) (ix3 e i 0) (by
    rw [Shape.rowMajor_val_three, Shape.rowMajor_val_two]; simp)

theorem v146_eq (dE3 dS3 : Cert.Spec.Arr3 50000 2 1) (hE : dE3 = fun y => P.dE (y 0) (y 1))
    (hS : dS3 = fun y => P.dS (y 0) (y 1)) :
    v146 (F := Ideal)
        (v144 (v135 (v65 (v56 Q.ea P.x a1) Q.LeW1 Q.Leb1 Q.LeW2 Q.Leb2) (v134 dE3 a1))
          (v143 (v74 (v56 Q.ea P.x a1) Q.MeW1 Q.Meb1 Q.MeW2 Q.Meb2) (v142 dS3 a1)))
      = Q.etA P (Cert.Spec.rowOf (sIdx a1)) (Cert.Spec.rowOf (rIdx a1)) := by
  funext y
  obtain ⟨e, i, rfl⟩ : ∃ (e : Fin 500000) (i : Fin 2), y = ix2 e i := ⟨y 0, y 1, eq_ix2 y⟩
  show v146 (F := Ideal) _ (ix2 e i) = Q.et P _ _ e i
  rw [v146_apply]
  unfold v144
  rw [addf_apply, v65_eq, v74_eq]
  subst hE hS
  obtain rfl | rfl : i = 0 ∨ i = 1 := by omega
  · rw [(v135_apply _ _ e).1, (v143_apply _ _ e).1]
    unfold v134 v142
    simp only [gatherVec_apply]
    rfl
  · rw [(v135_apply _ _ e).2, (v143_apply _ _ e).2]
    unfold v134 v142
    simp only [gatherVec_apply]
    rfl

end EdgeTerm

end Cert.ReferenceIdeal.St

end
-- ==== Proof.RefVal.lean ====
import proofs.«406161_j39298950758847_3_alg».proof.Proof.RefRun1
import proofs.«406161_j39298950758847_3_alg».proof.Proof.RefValN
import proofs.«406161_j39298950758847_3_alg».proof.Proof.RefValE
import proofs.«406161_j39298950758847_3_alg».proof.Proof.Spec

noncomputable section

namespace Cert.ReferenceIdeal.St

open Cert.ReferenceIdeal Cert.ReferenceIdeal.Gen Idealize.ShloMosaic Idealize.ShloMosaic.TcCoe Idealize.SL.Sem Idealize.ShloMosaic.StableHlo

def nodeP (m : (ℓ : Loc nD τ sig) → Buf (Elt Ideal) ℓ) (d : Dev nD) : Cert.Spec.NodeP :=
  { x := m ((d.tc : Thread nD τ).loc main_arg0)
    EgW1 := m ((d.tc : Thread nD τ).loc main_arg3)
    Egb1 := m ((d.tc : Thread nD τ).loc main_arg4)
    EgW2 := m ((d.tc : Thread nD τ).loc main_arg5)
    Egb2 := m ((d.tc : Thread nD τ).loc main_arg6)
    SgW1 := m ((d.tc : Thread nD τ).loc main_arg7)
    Sgb1 := m ((d.tc : Thread nD τ).loc main_arg8)
    SgW2 := m ((d.tc : Thread nD τ).loc main_arg9)
    Sgb2 := m ((d.tc : Thread nD τ).loc main_arg10)
    LnW1 := m ((d.tc : Thread nD τ).loc main_arg11)
    Lnb1 := m ((d.tc : Thread nD τ).loc main_arg12)
    LnW2 := m ((d.tc : Thread nD τ).loc main_arg13)
    Lnb2 := m ((d.tc : Thread nD τ).loc main_arg14)
    MnW1 := m ((d.tc : Thread nD τ).loc main_arg15)
    Mnb1 := m ((d.tc : Thread nD τ).loc main_arg16)
    MnW2 := m ((d.tc : Thread nD τ).loc main_arg17)
    Mnb2 := m ((d.tc : Thread nD τ).loc main_arg18) }

def edgeP (m : (ℓ : Loc nD τ sig) → Buf (Elt Ideal) ℓ) (d : Dev nD) : Cert.Spec.EdgeP :=
  { ea := m ((d.tc : Thread nD τ).loc main_arg2)
    LeW1 := m ((d.tc : Thread nD τ).loc main_arg19)
    Leb1 := m ((d.tc : Thread nD τ).loc main_arg20)
    LeW2 := m ((d.tc : Thread nD τ).loc main_arg21)
    Leb2 := m ((d.tc : Thread nD τ).loc main_arg22)
    MeW1 := m ((d.tc : Thread nD τ).loc main_arg23)
    Meb1 := m ((d.tc : Thread nD τ).loc main_arg24)
    MeW2 := m ((d.tc : Thread nD τ).loc main_arg25)
    Meb2 := m ((d.tc : Thread nD τ).loc main_arg26) }

theorem results (m : (ℓ : Loc nD τ sig) → Buf (Elt Ideal) ℓ) (d : Dev nD) :
    (after (Ops.ops (F := Ideal)) (launchContents m d) (Proc.devRef .tc main_v150) : Cert.Spec.Arr2 50000 2)
        = subf (nodeP m d).ntA
            (Host.scatterAdd scatter_S50000x2_S500000x1_S500000x2_1_0_0_1
              (broadcastInDim S50000x2 ![] bcast_S_S50000x2 (constant (F := Ideal) S_ .f32 0x00000000#32))
              (scIdx (m ((d.tc : Thread nD τ).loc main_arg1)))
              ((edgeP m d).etA (nodeP m d) (Cert.Spec.rowOf (sIdx (m ((d.tc : Thread nD τ).loc main_arg1)))) (Cert.Spec.rowOf (rIdx (m ((d.tc : Thread nD τ).loc main_arg1))))))
      ∧ (after (Ops.ops (F := Ideal)) (launchContents m d) (Proc.devRef .tc main_v151) : Cert.Spec.Arr3 50000 2 1)
        = (nodeP m d).degEA
      ∧ (after (Ops.ops (F := Ideal)) (launchContents m d) (Proc.devRef .tc main_v152) : Cert.Spec.Arr3 50000 2 1)
        = (nodeP m d).degSA := by
  have hE : v13 (F := Ideal) (v12 (nodeP m d).x (nodeP m d).EgW1 (nodeP m d).Egb1 (nodeP m d).EgW2 (nodeP m d).Egb2)
      = fun y => (nodeP m d).dE (y 0) (y 1) := by rw [v12_eq]; rfl
  have hS : v23 (F := Ideal) (v22 (nodeP m d).x (nodeP m d).SgW1 (nodeP m d).Sgb1 (nodeP m d).SgW2 (nodeP m d).Sgb2)
      = fun y => (nodeP m d).dS (y 0) (y 1) := by rw [v22_eq]; rfl
  refine ⟨(Ops.res_out0 m d).trans ?_, (Ops.res_out1 m d).trans ?_, (Ops.res_out2 m d).trans ?_⟩
  · unfold v150 v149
    exact congrArg₂ subf (v145_eq (nodeP m d))
      (congrArg (Host.scatterAdd scatter_S50000x2_S500000x1_S500000x2_1_0_0_1 _ _)
        (v146_eq (nodeP m d) (edgeP m d) _ _ _ hE hS))
  · exact v151_eq (nodeP m d)
  · exact v152_eq (nodeP m d)

end Cert.ReferenceIdeal.St

end
-- ==== Proof.Claims.lean ====
import proofs.«406161_j39298950758847_3_alg».proof.Defs
import proofs.«406161_j39298950758847_3_alg».proof.Proof.Gen.Kernel
import proofs.«406161_j39298950758847_3_alg».proof.Proof.Gen.KernelIdeal
import proofs.«406161_j39298950758847_3_alg».proof.Proof.Gen.ReferenceIdeal
import proofs.«406161_j39298950758847_3_alg».proof.Proof.Gen.Pre_finite_inputs
import proofs.«406161_j39298950758847_3_alg».proof.Proof.Spec
import proofs.«406161_j39298950758847_3_alg».proof.Proof.KRun
import proofs.«406161_j39298950758847_3_alg».proof.Proof.KIRun
import proofs.«406161_j39298950758847_3_alg».proof.Proof.KIValMain
import proofs.«406161_j39298950758847_3_alg».proof.Proof.RefRun
import proofs.«406161_j39298950758847_3_alg».proof.Proof.RefVal

noncomputable section

open Idealize.ShloMosaic Idealize.ShloMosaic.TcCoe Idealize.SL.Sem

namespace Cert.Proof.Claims

theorem run_and {nD : Nat} {τ : Topo} {sig : RefSig} {Val : EltTy → Type} {Λ : Labels} (defs : Defs nD τ sig Val Λ)
    (p : (c : Thread nD τ) → Prog (TpuEff nD τ sig Val Λ c.2) PUnit) (s : MemSt nD τ sig Val)
    {Q Q' : PUnit × MemSt nD τ sig Val → Prop} (h : θ_run defs p s Q) (h' : θ_run defs p s Q') :
    θ_run defs p s (fun r => Q r ∧ Q' r) :=
  ⟨fun t ht hf => ⟨h.post t ht hf, h'.post t ht hf⟩, h.progress, h.fair⟩

theorem frame_k : Cert.frame_Kernel := fun m ρ _ => (θ_run _ _ _).mono (fun r h c => by
  constructorm* _ ∧ _ <;> exact h c _ (by decide)) (Cert.Kernel.Reg.kept m ρ)

theorem frame_ki : Cert.frame_KernelIdeal := fun m ρ _ => (θ_run _ _ _).mono (fun r h c => by
  constructorm* _ ∧ _ <;> exact h c _ (by decide)) (Cert.KernelIdeal.Reg.kept m ρ)

theorem frame_ri : Cert.frame_ReferenceIdeal := fun m ρ _ => Cert.ReferenceIdeal.Ops.frame m ρ

theorem preserves : Cert.preserves_Kernel_KernelIdeal := trivial

/-- Each program's three results are the specification's arrays at its own arguments; memories that agree on the
    arguments give the specification the same arrays and the same index rows. -/
theorem algebraic : Cert.algebraic_KernelIdeal_ReferenceIdeal := by
  intro m ρ m' ρ' hpre hagree
  refine ⟨fun c => Cert.KernelIdeal.Reg.W5 m ρ c (Proc.devRef .tc Cert.KernelIdeal.main_v40), fun c => Cert.KernelIdeal.Reg.W5 m ρ c (Proc.devRef .tc Cert.KernelIdeal.main_v41),
    fun c => Cert.KernelIdeal.Reg.W5 m ρ c (Proc.devRef .tc Cert.KernelIdeal.main_v42),
    (θ_run _ _ _).mono (fun r h c => ⟨h.1 c _ (by decide), h.1 c _ (by decide), h.1 c _ (by decide), h.2 c⟩)
      (run_and _ _ _ (Cert.KernelIdeal.Reg.run m ρ) (frame_ki m ρ hpre)), ?_⟩
  refine (θ_run Cert.ReferenceIdeal.defs _ _).mono (fun r h c => ?_)
    (run_and _ _ _ (Cert.ReferenceIdeal.Ops.run (F := Ideal) m' ρ') (Cert.ReferenceIdeal.Ops.frame (F := Ideal) m' ρ'))
  obtain ⟨hrun, hargs⟩ := h
  obtain ⟨h0, h1, h2, h3, h4, h5, h6, h7, h8, h9, h10, h11, h12, h13, h14, h15, h16, h17, h18, h19, h20, h21, h22, h23, h24, h25, h26⟩ := hagree c
  have hN : Cert.ReferenceIdeal.St.nodeP m' c = Cert.KernelIdeal.Val.nodeP m c := by
    unfold Cert.ReferenceIdeal.St.nodeP Cert.KernelIdeal.Val.nodeP
    rw [h0, h3, h4, h5, h6, h7, h8, h9, h10, h11, h12, h13, h14, h15, h16, h17, h18]
  have hE : Cert.ReferenceIdeal.St.edgeP m' c = Cert.KernelIdeal.Val.edgeP m c := by
    unfold Cert.ReferenceIdeal.St.edgeP Cert.KernelIdeal.Val.edgeP
    rw [h2, h19, h20, h21, h22, h23, h24, h25, h26]
  have hs : Cert.ReferenceIdeal.St.sIdx (m' ((c.tc : Thread Cert.ReferenceIdeal.nD Cert.ReferenceIdeal.τ).loc Cert.ReferenceIdeal.main_arg1)) = Cert.KernelIdeal.Val.sIdx (m ((c.tc : Thread Cert.KernelIdeal.nD Cert.KernelIdeal.τ).loc Cert.KernelIdeal.main_arg1)) := by rw [h1]; rfl
  have hr : Cert.ReferenceIdeal.St.rIdx (m' ((c.tc : Thread Cert.ReferenceIdeal.nD Cert.ReferenceIdeal.τ).loc Cert.ReferenceIdeal.main_arg1)) = Cert.KernelIdeal.Val.rIdx (m ((c.tc : Thread Cert.KernelIdeal.nD Cert.KernelIdeal.τ).loc Cert.KernelIdeal.main_arg1)) := by rw [h1]; rfl
  have hsc : Cert.ReferenceIdeal.St.scIdx (m' ((c.tc : Thread Cert.ReferenceIdeal.nD Cert.ReferenceIdeal.τ).loc Cert.ReferenceIdeal.main_arg1)) = Cert.KernelIdeal.Val.scIdx (m ((c.tc : Thread Cert.KernelIdeal.nD Cert.KernelIdeal.τ).loc Cert.KernelIdeal.main_arg1)) := by rw [h1]; rfl
  obtain ⟨r0, r1, r2⟩ := Cert.ReferenceIdeal.St.results m' c
  obtain ⟨k0, k1, k2⟩ := Cert.KernelIdeal.Val.results m ρ c
  refine ⟨(hrun c _).trans (r0.trans ?_), (hrun c _).trans (r1.trans ?_), (hrun c _).trans (r2.trans ?_), hargs c⟩
  · rw [hN, hE, hs, hr, hsc]; exact k0.symm
  · rw [hN]; exact k1.symm
  · rw [hN]; exact k2.symm

end Cert.Proof.Claims

end
-- ==== Proof.lean ====
/- Per node, four two-layer heads give dE, dS ∈ ℝ², l ∈ ℝ, m ∈ ℝ³, the skew matrix L = [[0, −l], [l, 0]] and M = T·Tᵀ with
   T = [[m₀, 0], [m₁, m₂]]; per edge, two heads on its own, its sender's and its receiver's features give L(e), M(e). The results
   are L·dE + M·dS minus the edge terms L(e)·dE(s e) + M(e)·dS(s e) summed by receiver, M·dE and L·dS. Both programs compute
   these same sums of products, up to the grouping of + and ·. -/
import proofs.«406161_j39298950758847_3_alg».proof.Defs
import proofs.«406161_j39298950758847_3_alg».proof.Proof.Gen.Kernel
import proofs.«406161_j39298950758847_3_alg».proof.Proof.Gen.KernelIdeal
import proofs.«406161_j39298950758847_3_alg».proof.Proof.Gen.ReferenceIdeal
import proofs.«406161_j39298950758847_3_alg».proof.Proof.Gen.Pre_finite_inputs
import proofs.«406161_j39298950758847_3_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
